-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x128 : Shape := ⟨2, ![4096, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1 : Shape := ⟨2, ![1, 1]⟩
abbrev S1x8 : Shape := ⟨2, ![1, 8]⟩
abbrev S8 : Shape := ⟨1, ![8]⟩
abbrev S8x16 : Shape := ⟨2, ![8, 16]⟩
abbrev S16 : Shape := ⟨1, ![16]⟩
abbrev S16x64 : Shape := ⟨2, ![16, 64]⟩
abbrev S64x4 : Shape := ⟨2, ![64, 4]⟩
abbrev S4 : Shape := ⟨1, ![4]⟩
abbrev S4x8 : Shape := ⟨2, ![4, 8]⟩
abbrev S8x1 : Shape := ⟨2, ![8, 1]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S1x1 : S_.BroadcastsInDim S1x1 (![] : Fin 0 → Fin S1x1.rank)
  reducesTo_S1x1_S_d0_1 : S1x1.ReducesTo [0, 1] S_
  bcast_S_S1x8 : S_.BroadcastsInDim S1x8 (![] : Fin 0 → Fin S1x8.rank)
  reducesTo_S1x8_S_d0_1 : S1x8.ReducesTo [0, 1] S_
  bcast_S_S8 : S_.BroadcastsInDim S8 (![] : Fin 0 → Fin S8.rank)
  reducesTo_S8_S_d0 : S8.ReducesTo [0] S_
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_
  bcast_S_S4x8 : S_.BroadcastsInDim S4x8 (![] : Fin 0 → Fin S4x8.rank)
  reducesTo_S4x8_S_d0_1 : S4x8.ReducesTo [0, 1] S_
  bcast_S_S8x1 : S_.BroadcastsInDim S8x1 (![] : Fin 0 → Fin S8x1.rank)
  reducesTo_S8x1_S_d0_1 : S8x1.ReducesTo [0, 1] S_

variable [Facts]

def fn_part6 {F : FTy → Type} [FloatOps F] (main_arg21 : FVec F S8x1 .f32) (main_arg22 : FVec F S1 .f32) (main_v98 : IVec S_ 1) (main_v101 : IVec S8 1) (main_c_39 : IVec S_ 1) : IVec S_ 1 :=
  let main_v102 : IVec S_ 1 := (fun x v => Host.reduce IntOp.andi x v reducesTo_S8_S_d0 h_S_) main_v101 main_c_39
  let main_v103 : IVec S_ 1 := andi main_v98 main_v102
  let main_v104 : FVec F S8x1 .f32 := Host.absf main_arg21
  let main_cst_40 : FVec F S_ .f32 := constant S_ .f32 0x7F800000#32
  let main_v105 : FVec F S8x1 .f32 := broadcastInDim S8x1 ![] bcast_S_S8x1 main_cst_40
  let main_v106 : IVec S8x1 1 := cmpf .olt main_v104 main_v105
  let main_c_41 : IVec S_ 1 := constantI S_ 1 1#1
  let main_v107 : IVec S_ 1 := (fun x v => Host.reduce IntOp.andi x v reducesTo_S8x1_S_d0_1 h_S_) main_v106 main_c_41
  let main_v108 : IVec S_ 1 := andi main_v103 main_v107
  let main_v109 : FVec F S1 .f32 := Host.absf main_arg22
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  main_v113

def fn_part5 {F : FTy → Type} [FloatOps F] (main_arg18 : FVec F S4 .f32) (main_arg19 : FVec F S4x8 .f32) (main_arg20 : FVec F S8 .f32) (main_arg21 : FVec F S8x1 .f32) (main_arg22 : FVec F S1 .f32) (main_v83 : IVec S_ 1) (main_v84 : FVec F S4 .f32) (main_cst_32 : FVec F S_ .f32) : IVec S_ 1 :=
  let main_v85 : FVec F S4 .f32 := broadcastInDim S4 ![] bcast_S_S4 main_cst_32
  let main_v86 : IVec S4 1 := cmpf .olt main_v84 main_v85
  let main_c_33 : IVec S_ 1 := constantI S_ 1 1#1
  let main_v87 : IVec S_ 1 := (fun x v => Host.reduce IntOp.andi x v reducesTo_S4_S_d0 h_S_) main_v86 main_c_33
  let main_v88 : IVec S_ 1 := andi main_v83 main_v87
  let main_v89 : FVec F S4 .f32 := Host.absf main_arg18
  let main_cst_34 : FVec F S_ .f32 := constant S_ .f32 0x7F800000#32
  let main_v90 : FVec F S4 .f32 := broadcastInDim S4 ![] bcast_S_S4 main_cst_34
  let main_v91 : IVec S4 1 := cmpf .olt main_v89 main_v90
  let main_c_35 : IVec S_ 1 := constantI S_ 1 1#1
  let main_v92 : IVec S_ 1 := (fun x v => Host.reduce IntOp.andi x v reducesTo_S4_S_d0 h_S_) main_v91 main_c_35
  let main_v93 : IVec S_ 1 := andi main_v88 main_v92
  let main_v94 : FVec F S4x8 .f32 := Host.absf main_arg19
  let main_cst_36 : FVec F S_ .f32 := constant S_ .f32 0x7F800000#32
  let main_v95 : FVec F S4x8 .f32 := broadcastInDim S4x8 ![] bcast_S_S4x8 main_cst_36
  let main_v96 : IVec S4x8 1 := cmpf .olt main_v94 main_v95
  let main_c_37 : IVec S_ 1 := constantI S_ 1 1#1
  let main_v97 : IVec S_ 1 := (fun x v => Host.reduce IntOp.andi x v reducesTo_S4x8_S_d0_1 h_S_) main_v96 main_c_37
  let main_v98 : IVec S_ 1 := andi main_v93 main_v97
  let main_v99 : FVec F S8 .f32 := Host.absf main_arg20
  let main_cst_38 : FVec F S_ .f32 := constant S_ .f32 0x7F800000#32
  let main_v100 : FVec F S8 .f32 := broadcastInDim S8 ![] bcast_S_S8 main_cst_38
  let main_v101 : IVec S8 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S64 .f32) (main_arg15 : FVec F S64x4 .f32) (main_arg16 : FVec F S4 .f32) (main_arg17 : FVec F S4 .f32) (main_arg18 : FVec F S4 .f32) (main_arg19 : FVec F S4x8 .f32) (main_arg20 : FVec F S8 .f32) (main_arg21 : FVec F S8x1 .f32) (main_arg22 : FVec F S1 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x4 .f32 := Host.absf main_arg15
  let main_cst_28 : FVec F S_ .f32 := constant S_ .f32 0x7F800000#32
  let main_v75 : FVec F S64x4 .f32 := broadcastInDim S64x4 ![] bcast_S_S64x4 main_cst_28
  let main_v76 : IVec S64x4 1 := cmpf .olt main_v74 main_v75
  let main_c_29 : IVec S_ 1 := constantI S_ 1 1#1
  let main_v77 : IVec S_ 1 := (fun x v => Host.reduce IntOp.andi x v reducesTo_S64x4_S_d0_1 h_S_) main_v76 main_c_29
  let main_v78 : IVec S_ 1 := andi main_v73 main_v77
  let main_v79 : FVec F S4 .f32 := Host.absf main_arg16
  let main_cst_30 : FVec F S_ .f32 := constant S_ .f32 0x7F800000#32
  let main_v80 : FVec F S4 .f32 := broadcastInDim S4 ![] bcast_S_S4 main_cst_30
  let main_v81 : IVec S4 1 := cmpf .olt main_v79 main_v80
  let main_c_31 : IVec S_ 1 := constantI S_ 1 1#1
  let main_v82 : IVec S_ 1 := (fun x v => Host.reduce IntOp.andi x v reducesTo_S4_S_d0 h_S_) main_v81 main_c_31
  let main_v83 : IVec S_ 1 := andi main_v78 main_v82
  let main_v84 : FVec F S4 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S8x16 .f32) (main_arg12 : FVec F S16 .f32) (main_arg13 : FVec F S16x64 .f32) (main_arg14 : FVec F S64 .f32) (main_arg15 : FVec F S64x4 .f32) (main_arg16 : FVec F S4 .f32) (main_arg17 : FVec F S4 .f32) (main_arg18 : FVec F S4 .f32) (main_arg19 : FVec F S4x8 .f32) (main_arg20 : FVec F S8 .f32) (main_arg21 : FVec F S8x1 .f32) (main_arg22 : FVec F S1 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S8x16 .f32 := Host.absf main_arg11
  let main_cst_20 : FVec F S_ .f32 := constant S_ .f32 0x7F800000#32
  let main_v55 : FVec F S8x16 .f32 := broadcastInDim S8x16 ![] bcast_S_S8x16 main_cst_20
  let main_v56 : IVec S8x16 1 := cmpf .olt main_v54 main_v55
  let main_c_21 : IVec S_ 1 := constantI S_ 1 1#1
  let main_v57 : IVec S_ 1 := (fun x v => Host.reduce IntOp.andi x v reducesTo_S8x16_S_d0_1 h_S_) main_v56 main_c_21
  let main_v58 : IVec S_ 1 := andi main_v53 main_v57
  let main_v59 : FVec F S16 .f32 := Host.absf main_arg12
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S16x64 .f32 := Host.absf main_arg13
  let main_cst_24 : FVec F S_ .f32 := constant S_ .f32 0x7F800000#32
  let main_v65 : FVec F S16x64 .f32 := broadcastInDim S16x64 ![] bcast_S_S16x64 main_cst_24
  let main_v66 : IVec S16x64 1 := cmpf .olt main_v64 main_v65
  let main_c_25 : IVec S_ 1 := constantI S_ 1 1#1
  let main_v67 : IVec S_ 1 := (fun x v => Host.reduce IntOp.andi x v reducesTo_S16x64_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S1x1 .f32) (main_arg8 : FVec F S1x1 .f32) (main_arg9 : FVec F S1x8 .f32) (main_arg10 : FVec F S8 .f32) (main_arg11 : FVec F S8x16 .f32) (main_arg12 : FVec F S16 .f32) (main_arg13 : FVec F S16x64 .f32) (main_arg14 : FVec F S64 .f32) (main_arg15 : FVec F S64x4 .f32) (main_arg16 : FVec F S4 .f32) (main_arg17 : FVec F S4 .f32) (main_arg18 : FVec F S4 .f32) (main_arg19 : FVec F S4x8 .f32) (main_arg20 : FVec F S8 .f32) (main_arg21 : FVec F S8x1 .f32) (main_arg22 : FVec F S1 .f32) (main_v33 : IVec S_ 1) : IVec S_ 1 :=
  let main_v34 : FVec F S1x1 .f32 := Host.absf main_arg7
  let main_cst_12 : FVec F S_ .f32 := constant S_ .f32 0x7F800000#32
  let main_v35 : FVec F S1x1 .f32 := broadcastInDim S1x1 ![] bcast_S_S1x1 main_cst_12
  let main_v36 : IVec S1x1 1 := cmpf .olt main_v34 main_v35
  let main_c_13 : IVec S_ 1 := constantI S_ 1 1#1
  let main_v37 : IVec S_ 1 := (fun x v => Host.reduce IntOp.andi x v reducesTo_S1x1_S_d0_1 h_S_) main_v36 main_c_13
  let main_v38 : IVec S_ 1 := andi main_v33 main_v37
  let main_v39 : FVec F S1x1 .f32 := Host.absf main_arg8
  let main_cst_14 : FVec F S_ .f32 := constant S_ .f32 0x7F800000#32
  let main_v40 : FVec F S1x1 .f32 := broadcastInDim S1x1 ![] bcast_S_S1x1 main_cst_14
  let main_v41 : IVec S1x1 1 := cmpf .olt main_v39 main_v40
  let main_c_15 : IVec S_ 1 := constantI S_ 1 1#1
  let main_v42 : IVec S_ 1 := (fun x v => Host.reduce IntOp.andi x v reducesTo_S1x1_S_d0_1 h_S_) main_v41 main_c_15
  let main_v43 : IVec S_ 1 := andi main_v38 main_v42
  let main_v44 : FVec F S1x8 .f32 := Host.absf main_arg9
  let main_cst_16 : FVec F S_ .f32 := constant S_ .f32 0x7F800000#32
  let main_v45 : FVec F S1x8 .f32 := broadcastInDim S1x8 ![] bcast_S_S1x8 main_cst_16
  let main_v46 : IVec S1x8 1 := cmpf .olt main_v44 main_v45
  let main_c_17 : IVec S_ 1 := constantI S_ 1 1#1
  let main_v47 : IVec S_ 1 := (fun x v => Host.reduce IntOp.andi x v reducesTo_S1x8_S_d0_1 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S64 .f32) (main_arg5 : FVec F S64x1 .f32) (main_arg6 : FVec F S1 .f32) (main_arg7 : FVec F S1x1 .f32) (main_arg8 : FVec F S1x1 .f32) (main_arg9 : FVec F S1x8 .f32) (main_arg10 : FVec F S8 .f32) (main_arg11 : FVec F S8x16 .f32) (main_arg12 : FVec F S16 .f32) (main_arg13 : FVec F S16x64 .f32) (main_arg14 : FVec F S64 .f32) (main_arg15 : FVec F S64x4 .f32) (main_arg16 : FVec F S4 .f32) (main_arg17 : FVec F S4 .f32) (main_arg18 : FVec F S4 .f32) (main_arg19 : FVec F S4x8 .f32) (main_arg20 : FVec F S8 .f32) (main_arg21 : FVec F S8x1 .f32) (main_arg22 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S8192x4096 .f32) (main_arg1 : FVec F S4096x128 .f32) (main_arg2 : FVec F S128 .f32) (main_arg3 : FVec F S128x64 .f32) (main_arg4 : FVec F S64 .f32) (main_arg5 : FVec F S64x1 .f32) (main_arg6 : FVec F S1 .f32) (main_arg7 : FVec F S1x1 .f32) (main_arg8 : FVec F S1x1 .f32) (main_arg9 : FVec F S1x8 .f32) (main_arg10 : FVec F S8 .f32) (main_arg11 : FVec F S8x16 .f32) (main_arg12 : FVec F S16 .f32) (main_arg13 : FVec F S16x64 .f32) (main_arg14 : FVec F S64 .f32) (main_arg15 : FVec F S64x4 .f32) (main_arg16 : FVec F S4 .f32) (main_arg17 : FVec F S4 .f32) (main_arg18 : FVec F S4 .f32) (main_arg19 : FVec F S4x8 .f32) (main_arg20 : FVec F S8 .f32) (main_arg21 : FVec F S8x1 .f32) (main_arg22 : FVec F S1 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S8192x4096 : Shape := ⟨2, ![8192, 4096]⟩
abbrev S4096x128 : Shape := ⟨2, ![4096, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1 : Shape := ⟨2, ![1, 1]⟩
abbrev S1x8 : Shape := ⟨2, ![1, 8]⟩
abbrev S8 : Shape := ⟨1, ![8]⟩
abbrev S8x16 : Shape := ⟨2, ![8, 16]⟩
abbrev S16 : Shape := ⟨1, ![16]⟩
abbrev S16x64 : Shape := ⟨2, ![16, 64]⟩
abbrev S64x4 : Shape := ⟨2, ![64, 4]⟩
abbrev S4 : Shape := ⟨1, ![4]⟩
abbrev S4x8 : Shape := ⟨2, ![4, 8]⟩
abbrev S8x1 : Shape := ⟨2, ![8, 1]⟩
abbrev S1x128 : Shape := ⟨2, ![1, 128]⟩
abbrev S1x64 : Shape := ⟨2, ![1, 64]⟩
abbrev S8192x1 : Shape := ⟨2, ![8192, 1]⟩
abbrev S512x4096 : Shape := ⟨2, ![512, 4096]⟩
abbrev S512x1 : Shape := ⟨2, ![512, 1]⟩
abbrev S512x128 : Shape := ⟨2, ![512, 128]⟩
abbrev S512x64 : Shape := ⟨2, ![512, 64]⟩
abbrev S_ : Shape := ⟨0, ![]⟩
abbrev S1x8192 : Shape := ⟨2, ![1, 8192]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S8192x8 : Shape := ⟨2, ![8192, 8]⟩
abbrev S8192x16 : Shape := ⟨2, ![8192, 16]⟩
abbrev S1x16 : Shape := ⟨2, ![1, 16]⟩
abbrev S8192x64 : Shape := ⟨2, ![8192, 64]⟩
abbrev S8192x4 : Shape := ⟨2, ![8192, 4]⟩
abbrev S1x4 : Shape := ⟨2, ![1, 4]⟩
abbrev S8192 : Shape := ⟨1, ![8192]⟩

abbrev nBuf : Space → Nat
  | .hbm => 116
  | .vmem => 22
  | .smem => 0
  | _ => 0

abbrev bufTy : (tb : Table) → Fin (tcTables nBuf tb) → BufTy
  | .hbm, ⟨0, _⟩ => ⟨S8192x4096, .f32⟩
  | .hbm, ⟨1, _⟩ => ⟨S4096x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S1x1, .f32⟩
  | .hbm, ⟨8, _⟩ => ⟨S1x1, .f32⟩
  | .hbm, ⟨9, _⟩ => ⟨S1x8, .f32⟩
  | .hbm, ⟨10, _⟩ => ⟨S8, .f32⟩
  | .hbm, ⟨11, _⟩ => ⟨S8x16, .f32⟩
  | .hbm, ⟨12, _⟩ => ⟨S16, .f32⟩
  | .hbm, ⟨13, _⟩ => ⟨S16x64, .f32⟩
  | .hbm, ⟨14, _⟩ => ⟨S64, .f32⟩
  | .hbm, ⟨15, _⟩ => ⟨S64x4, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S4x8, .f32⟩
  | .hbm, ⟨20, _⟩ => ⟨S8, .f32⟩
  | .hbm, ⟨21, _⟩ => ⟨S8x1, .f32⟩
  | .hbm, ⟨22, _⟩ => ⟨S1, .f32⟩
  | .hbm, ⟨23, _⟩ => ⟨S1x128, .f32⟩
  | .hbm, ⟨24, _⟩ => ⟨S1x64, .f32⟩
  | .hbm, ⟨25, _⟩ => ⟨S1x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S1x8192, .f32⟩
  | .hbm, ⟨37, _⟩ => ⟨S1x8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192x1, .f32⟩
  | .hbm, ⟨44, _⟩ => ⟨S8192x1, .i1⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x8, .f32⟩
  | .hbm, ⟨52, _⟩ => ⟨S1x8, .f32⟩
  | .hbm, ⟨53, _⟩ => ⟨S8192x8, .f32⟩
  | .hbm, ⟨54, _⟩ => ⟨S8192x8, .f32⟩
  | .hbm, ⟨55, _⟩ => ⟨S_, .f32⟩
  | .hbm, ⟨56, _⟩ => ⟨S8192x8, .f32⟩
  | .hbm, ⟨57, _⟩ => ⟨S8192x8, .f32⟩
  | .hbm, ⟨58, _⟩ => ⟨S8192x16, .f32⟩
  | .hbm, ⟨59, _⟩ => ⟨S1x16, .f32⟩
  | .hbm, ⟨60, _⟩ => ⟨S8192x16, .f32⟩
  | .hbm, ⟨61, _⟩ => ⟨S8192x16, .f32⟩
  | .hbm, ⟨62, _⟩ => ⟨S_, .f32⟩
  | .hbm, ⟨63, _⟩ => ⟨S8192x16, .f32⟩
  | .hbm, ⟨64, _⟩ => ⟨S8192x16, .f32⟩
  | .hbm, ⟨65, _⟩ => ⟨S8192x64, .f32⟩
  | .hbm, ⟨66, _⟩ => ⟨S1x64, .f32⟩
  | .hbm, ⟨67, _⟩ => ⟨S8192x64, .f32⟩
  | .hbm, ⟨68, _⟩ => ⟨S8192x64, .f32⟩
  | .hbm, ⟨69, _⟩ => ⟨S_, .f32⟩
  | .hbm, ⟨70, _⟩ => ⟨S8192x64, .f32⟩
  | .hbm, ⟨71, _⟩ => ⟨S8192x64, .f32⟩
  | .hbm, ⟨72, _⟩ => ⟨S8192x4, .f32⟩
  | .hbm, ⟨73, _⟩ => ⟨S1x4, .f32⟩
  | .hbm, ⟨74, _⟩ => ⟨S8192x4, .f32⟩
  | .hbm, ⟨75, _⟩ => ⟨S8192x4, .f32⟩
  | .hbm, ⟨76, _⟩ => ⟨S_, .f32⟩
  | .hbm, ⟨77, _⟩ => ⟨S4, .f32⟩
  | .hbm, ⟨78, _⟩ => ⟨S_, .f32⟩
  | .hbm, ⟨79, _⟩ => ⟨S4, .f32⟩
  | .hbm, ⟨80, _⟩ => ⟨S4, .f32⟩
  | .hbm, ⟨81, _⟩ => ⟨S1x4, .f32⟩
  | .hbm, ⟨82, _⟩ => ⟨S8192x4, .f32⟩
  | .hbm, ⟨83, _⟩ => ⟨S8192x4, .f32⟩
  | .hbm, ⟨84, _⟩ => ⟨S8192x4, .f32⟩
  | .hbm, ⟨85, _⟩ => ⟨S_, .f32⟩
  | .hbm, ⟨86, _⟩ => ⟨S4, .f32⟩
  | .hbm, ⟨87, _⟩ => ⟨S_, .f32⟩
  | .hbm, ⟨88, _⟩ => ⟨S4, .f32⟩
  | .hbm, ⟨89, _⟩ => ⟨S4, .f32⟩
  | .hbm, ⟨90, _⟩ => ⟨S1x4, .f32⟩
  | .hbm, ⟨91, _⟩ => ⟨S8192x4, .f32⟩
  | .hbm, ⟨92, _⟩ => ⟨S8192x4, .f32⟩
  | .hbm, ⟨93, _⟩ => ⟨S_, .f32⟩
  | .hbm, ⟨94, _⟩ => ⟨S4, .f32⟩
  | .hbm, ⟨95, _⟩ => ⟨S4, .f32⟩
  | .hbm, ⟨96, _⟩ => ⟨S4, .f32⟩
  | .hbm, ⟨97, _⟩ => ⟨S1x4, .f32⟩
  | .hbm, ⟨98, _⟩ => ⟨S8192x4, .f32⟩
  | .hbm, ⟨99, _⟩ => ⟨S8192x4, .f32⟩
  | .hbm, ⟨100, _⟩ => ⟨S1x4, .f32⟩
  | .hbm, ⟨101, _⟩ => ⟨S8192x4, .f32⟩
  | .hbm, ⟨102, _⟩ => ⟨S8192x4, .f32⟩
  | .hbm, ⟨103, _⟩ => ⟨S1x4, .f32⟩
  | .hbm, ⟨104, _⟩ => ⟨S8192x4, .f32⟩
  | .hbm, ⟨105, _⟩ => ⟨S8192x4, .f32⟩
  | .hbm, ⟨106, _⟩ => ⟨S8192x8, .f32⟩
  | .hbm, ⟨107, _⟩ => ⟨S1x8, .f32⟩
  | .hbm, ⟨108, _⟩ => ⟨S8192x8, .f32⟩
  | .hbm, ⟨109, _⟩ => ⟨S8192x8, .f32⟩
  | .hbm, ⟨110, _⟩ => ⟨S8192x8, .f32⟩
  | .hbm, ⟨111, _⟩ => ⟨S8192x1, .f32⟩
  | .hbm, ⟨112, _⟩ => ⟨S1x1, .f32⟩
  | .hbm, ⟨113, _⟩ => ⟨S8192x1, .f32⟩
  | .hbm, ⟨114, _⟩ => ⟨S8192x1, .f32⟩
  | .hbm, ⟨115, _⟩ => ⟨S8192, .f32⟩
  | .local _ .vmem, ⟨0, _⟩ => ⟨S512x4096, .f32⟩
  | .local _ .vmem, ⟨1, _⟩ => ⟨S512x4096, .f32⟩
  | .local _ .vmem, ⟨2, _⟩ => ⟨S4096x128, .f32⟩
  | .local _ .vmem, ⟨3, _⟩ => ⟨S1x128, .f32⟩
  | .local _ .vmem, ⟨4, _⟩ => ⟨S128x64, .f32⟩
  | .local _ .vmem, ⟨5, _⟩ => ⟨S1x64, .f32⟩
  | .local _ .vmem, ⟨6, _⟩ => ⟨S64x1, .f32⟩
  | .local _ .vmem, ⟨7, _⟩ => ⟨S1x1, .f32⟩
  | .local _ .vmem, ⟨8, _⟩ => ⟨S512x1, .f32⟩
  | .local _ .vmem, ⟨9, _⟩ => ⟨S512x1, .f32⟩
  | .local _ .vmem, ⟨10, _⟩ => ⟨S1024x1, .f32⟩
  | .local _ .vmem, ⟨11, _⟩ => ⟨S1024x1, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_0 : Ref sig .tc := ⟨.hbm, 38, rfl⟩
abbrev main_v14 : Ref sig .tc := ⟨.hbm, 39, rfl⟩
abbrev main_cst_1 : Ref sig .tc := ⟨.hbm, 40, rfl⟩
abbrev main_v15 : Ref sig .tc := ⟨.hbm, 41, rfl⟩
abbrev main_cst_2 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_call1_cst : Ref sig .tc := ⟨.hbm, 55, rfl⟩
abbrev main_call1_v0 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_call2_cst : Ref sig .tc := ⟨.hbm, 62, rfl⟩
abbrev main_call2_v0 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_call3_cst : Ref sig .tc := ⟨.hbm, 69, rfl⟩
abbrev main_call3_v0 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_3 : Ref sig .tc := ⟨.hbm, 76, rfl⟩
abbrev main_v43 : Ref sig .tc := ⟨.hbm, 77, rfl⟩
abbrev main_cst_4 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_5 : Ref sig .tc := ⟨.hbm, 85, rfl⟩
abbrev main_v50 : Ref sig .tc := ⟨.hbm, 86, rfl⟩
abbrev main_cst_6 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_7 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc1_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_17 : BitVec 32 := 0#32
  let v35 : BitVec 1 := Scalar.cmpi .ne v34 c0_i32_17
  v35

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S128_S1x128 : S128.ShapeCasts S1x128
  shapeCasts_S64_S1x64 : S64.ShapeCasts S1x64
  shapeCasts_S1_S1x1 : S1.ShapeCasts S1x1
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  shapeCasts_S1x1_S_ : S1x1.ShapeCasts S_
  bcast_S_S8192x1 : S_.BroadcastsInDim S8192x1 (![] : Fin 0 → Fin S8192x1.rank)
  shapeCasts_S8192x1_S1x8192 : S8192x1.ShapeCasts S1x8192
  reducesTo_S1x8192_S_d0_1 : S1x8192.ReducesTo [0, 1] S_
  h_S_ : 0 < S_.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  bcast_S_S8192x8 : S_.BroadcastsInDim S8192x8 (![] : Fin 0 → Fin S8192x8.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S_S8192x16 : S_.BroadcastsInDim S8192x16 (![] : Fin 0 → Fin S8192x16.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S4_S1x4_1 : S4.BroadcastsInDim S1x4 (![1] : Fin 1 → Fin S1x4.rank)
  bcast_S1x4_S8192x4_0_1 : S1x4.BroadcastsInDim S8192x4 (![0, 1] : Fin 2 → Fin S8192x4.rank)
  reducesTo_S8192x4_S4_d0 : S8192x4.ReducesTo [0] S4
  bcast_S_S4 : S_.BroadcastsInDim S4 (![] : Fin 0 → Fin S4.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  dot_S512x4096_S4096x128_S512x128_1_0_0_1_n_n_wf : DotDims.WF S512x4096 S4096x128 S512x128 [1] [0] [0] [1] [] []
  dot_S512x128_S128x64_S512x64_1_0_0_1_n_n_wf : DotDims.WF S512x128 S128x64 S512x64 [1] [0] [0] [1] [] []
  dot_S512x64_S64x1_S512x1_1_0_0_1_n_n_wf : DotDims.WF S512x64 S64x1 S512x1 [1] [0] [0] [1] [] []
  dot_S8192x1_S1x8_S8192x8_1_0_0_1_n_n_wf : DotDims.WF S8192x1 S1x8 S8192x8 [1] [0] [0] [1] [] []
  dot_S8192x8_S8x16_S8192x16_1_0_0_1_n_n_wf : DotDims.WF S8192x8 S8x16 S8192x16 [1] [0] [0] [1] [] []
  dot_S8192x16_S16x64_S8192x64_1_0_0_1_n_n_wf : DotDims.WF S8192x16 S16x64 S8192x64 [1] [0] [0] [1] [] []
  dot_S8192x64_S64x4_S8192x4_1_0_0_1_n_n_wf : DotDims.WF S8192x64 S64x4 S8192x4 [1] [0] [0] [1] [] []
  dot_S8192x4_S4x8_S8192x8_1_0_0_1_n_n_wf : DotDims.WF S8192x4 S4x8 S8192x8 [1] [0] [0] [1] [] []
  dot_S8192x8_S8x1_S8192x1_1_0_0_1_n_n_wf : DotDims.WF S8192x8 S8x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .f32 = 32 ∨ (Rect.block (s := S4096x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S8192x1.size a
  hwx0_7 : ∀ i : grid0.Coords, EltTy.bits .f32 = 32 ∨ (Rect.block (s := S8192x1) S512x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S8192x1.size a
  hwx1_0 : ∀ i : grid1.Coords, EltTy.bits .f32 = 32 ∨ (Rect.block (s := S8192x1) S1024x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x8192.size a
  hwx1_1 : ∀ i : grid1.Coords, EltTy.bits .f32 = 32 ∨ (Rect.block (s := S1x8192) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf
def dot_S8192x1_S1x8_S8192x8_1_0_0_1_n_n : DotDims S8192x1 S1x8 S8192x8 where
  lhsContracting := [1]
  rhsContracting := [0]
  lhsNonContracting := [0]
  rhsNonContracting := [1]
  lhsBatch := []
  rhsBatch := []
  wf := dot_S8192x1_S1x8_S8192x8_1_0_0_1_n_n_wf
def dot_S8192x8_S8x16_S8192x16_1_0_0_1_n_n : DotDims S8192x8 S8x16 S8192x16 where
  lhsContracting := [1]
  rhsContracting := [0]
  lhsNonContracting := [0]
  rhsNonContracting := [1]
  lhsBatch := []
  rhsBatch := []
  wf := dot_S8192x8_S8x16_S8192x16_1_0_0_1_n_n_wf
def dot_S8192x16_S16x64_S8192x64_1_0_0_1_n_n : DotDims S8192x16 S16x64 S8192x64 where
  lhsContracting := [1]
  rhsContracting := [0]
  lhsNonContracting := [0]
  rhsNonContracting := [1]
  lhsBatch := []
  rhsBatch := []
  wf := dot_S8192x16_S16x64_S8192x64_1_0_0_1_n_n_wf
def dot_S8192x64_S64x4_S8192x4_1_0_0_1_n_n : DotDims S8192x64 S64x4 S8192x4 where
  lhsContracting := [1]
  rhsContracting := [0]
  lhsNonContracting := [0]
  rhsNonContracting := [1]
  lhsBatch := []
  rhsBatch := []
  wf := dot_S8192x64_S64x4_S8192x4_1_0_0_1_n_n_wf
def dot_S8192x4_S4x8_S8192x8_1_0_0_1_n_n : DotDims S8192x4 S4x8 S8192x8 where
  lhsContracting := [1]
  rhsContracting := [0]
  lhsNonContracting := [0]
  rhsNonContracting := [1]
  lhsBatch := []
  rhsBatch := []
  wf := dot_S8192x4_S4x8_S8192x8_1_0_0_1_n_n_wf
def dot_S8192x8_S8x1_S8192x1_1_0_0_1_n_n : DotDims S8192x8 S8x1 S8192x1 where
  lhsContracting := [1]
  rhsContracting := [0]
  lhsNonContracting := [0]
  rhsNonContracting := [1]
  lhsBatch := []
  rhsBatch := []
  wf := dot_S8192x8_S8x1_S8192x1_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S512x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v8) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1024x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x128 : Shape := ⟨2, ![4096, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1 : Shape := ⟨2, ![1, 1]⟩
abbrev S1x8 : Shape := ⟨2, ![1, 8]⟩
abbrev S8 : Shape := ⟨1, ![8]⟩
abbrev S8x16 : Shape := ⟨2, ![8, 16]⟩
abbrev S16 : Shape := ⟨1, ![16]⟩
abbrev S16x64 : Shape := ⟨2, ![16, 64]⟩
abbrev S64x4 : Shape := ⟨2, ![64, 4]⟩
abbrev S4 : Shape := ⟨1, ![4]⟩
abbrev S4x8 : Shape := ⟨2, ![4, 8]⟩
abbrev S8x1 : Shape := ⟨2, ![8, 1]⟩
abbrev S8192x128 : Shape := ⟨2, ![8192, 128]⟩
abbrev S1x128 : Shape := ⟨2, ![1, 128]⟩
abbrev S_ : Shape := ⟨0, ![]⟩
abbrev S8192x64 : Shape := ⟨2, ![8192, 64]⟩
abbrev S1x64 : Shape := ⟨2, ![1, 64]⟩
abbrev S8192x1 : Shape := ⟨2, ![8192, 1]⟩
abbrev S1x8192 : Shape := ⟨2, ![1, 8192]⟩
abbrev S8192x8192 : Shape := ⟨2, ![8192, 8192]⟩
abbrev S8192 : Shape := ⟨1, ![8192]⟩
abbrev S8192x8 : Shape := ⟨2, ![8192, 8]⟩
abbrev S8192x16 : Shape := ⟨2, ![8192, 16]⟩
abbrev S1x16 : Shape := ⟨2, ![1, 16]⟩
abbrev S8192x4 : Shape := ⟨2, ![8192, 4]⟩
abbrev S1x4 : Shape := ⟨2, ![1, 4]⟩

abbrev nBuf : Space → Nat
  | .hbm => 129
  | .vmem => 0
  | .smem => 0
  | _ => 0

abbrev hbmTy0_0 (i : Nat) : BufTy := match i % 128 with
  | 0 => ⟨S8192x4096, .f32⟩
  | 1 => ⟨S4096x128, .f32⟩
  | 2 => ⟨S128, .f32⟩
  | 3 => ⟨S128x64, .f32⟩
  | 4 => ⟨S64, .f32⟩
  | 5 => ⟨S64x1, .f32⟩
  | 6 => ⟨S1, .f32⟩
  | 7 => ⟨S1x1, .f32⟩
  | 8 => ⟨S1x1, .f32⟩
  | 9 => ⟨S1x8, .f32⟩
  | 10 => ⟨S8, .f32⟩
  | 11 => ⟨S8x16, .f32⟩
  | 12 => ⟨S16, .f32⟩
  | 13 => ⟨S16x64, .f32⟩
  | 14 => ⟨S64, .f32⟩
  | 15 => ⟨S64x4, .f32⟩
  | 16 => ⟨S4, .f32⟩
  | 17 => ⟨S4, .f32⟩
  | 18 => ⟨S4, .f32⟩
  | 19 => ⟨S4x8, .f32⟩
  | 20 => ⟨S8, .f32⟩
  | 21 => ⟨S8x1, .f32⟩
  | 22 => ⟨S1, .f32⟩
  | 23 => ⟨S8192x128, .f32⟩
  | 24 => ⟨S1x128, .f32⟩
  | 25 => ⟨S8192x128, .f32⟩
  | 26 => ⟨S8192x128, .f32⟩
  | 27 => ⟨S_, .f32⟩
  | 28 => ⟨S8192x128, .f32⟩
  | 29 => ⟨S8192x128, .f32⟩
  | 30 => ⟨S8192x64, .f32⟩
  | 31 => ⟨S1x64, .f32⟩
  | 32 => ⟨S8192x64, .f32⟩
  | 33 => ⟨S8192x64, .f32⟩
  | 34 => ⟨S_, .f32⟩
  | 35 => ⟨S8192x64, .f32⟩
  | 36 => ⟨S8192x64, .f32⟩
  | 37 => ⟨S8192x1, .f32⟩
  | 38 => ⟨S1x1, .f32⟩
  | 39 => ⟨S8192x1, .f32⟩
  | 40 => ⟨S8192x1, .f32⟩
  | 41 => ⟨S8192x1, .f32⟩
  | 42 => ⟨S8192x1, .f32⟩
  | 43 => ⟨S1x8192, .f32⟩
  | 44 => ⟨S8192x8192, .f32⟩
  | 45 => ⟨S_, .f32⟩
  | 46 => ⟨S_, .f32⟩
  | 47 => ⟨S8192x8192, .f32⟩
  | 48 => ⟨S8192x8192, .f32⟩
  | 49 => ⟨S_, .f32⟩
  | 50 => ⟨S8192, .f32⟩
  | 51 => ⟨S_, .f32⟩
  | 52 => ⟨S8192, .f32⟩
  | 53 => ⟨S8192, .f32⟩
  | 54 => ⟨S8192x1, .f32⟩
  | 55 => ⟨S8192x8192, .f32⟩
  | 56 => ⟨S8192x8192, .f32⟩
  | 57 => ⟨S8192x8192, .f32⟩
  | 58 => ⟨S_, .f32⟩
  | 59 => ⟨S8192, .f32⟩
  | 60 => ⟨S8192x1, .f32⟩
  | 61 => ⟨S8192x8192, .f32⟩
  | 62 => ⟨S8192x8192, .f32⟩
  | 63 => ⟨S8192x1, .f32⟩
  | 64 => ⟨S8192x8, .f32⟩
  | 65 => ⟨S1x8, .f32⟩
  | 66 => ⟨S8192x8, .f32⟩
  | 67 => ⟨S8192x8, .f32⟩
  | 68 => ⟨S_, .f32⟩
  | 69 => ⟨S8192x8, .f32⟩
  | 70 => ⟨S8192x8, .f32⟩
  | 71 => ⟨S8192x16, .f32⟩
  | 72 => ⟨S1x16, .f32⟩
  | 73 => ⟨S8192x16, .f32⟩
  | 74 => ⟨S8192x16, .f32⟩
  | 75 => ⟨S_, .f32⟩
  | 76 => ⟨S8192x16, .f32⟩
  | 77 => ⟨S8192x16, .f32⟩
  | 78 => ⟨S8192x64, .f32⟩
  | 79 => ⟨S1x64, .f32⟩
  | 80 => ⟨S8192x64, .f32⟩
  | 81 => ⟨S8192x64, .f32⟩
  | 82 => ⟨S_, .f32⟩
  | 83 => ⟨S8192x64, .f32⟩
  | 84 => ⟨S8192x64, .f32⟩
  | 85 => ⟨S8192x4, .f32⟩
  | 86 => ⟨S1x4, .f32⟩
  | 87 => ⟨S8192x4, .f32⟩
  | 88 => ⟨S8192x4, .f32⟩
  | 89 => ⟨S_, .f32⟩
  | 90 => ⟨S4, .f32⟩
  | 91 => ⟨S_, .f32⟩
  | 92 => ⟨S4, .f32⟩
  | 93 => ⟨S4, .f32⟩
  | 94 => ⟨S1x4, .f32⟩
  | 95 => ⟨S8192x4, .f32⟩
  | 96 => ⟨S8192x4, .f32⟩
  | 97 => ⟨S8192x4, .f32⟩
  | 98 => ⟨S_, .f32⟩
  | 99 => ⟨S4, .f32⟩
  | 100 => ⟨S_, .f32⟩
  | 101 => ⟨S4, .f32⟩
  | 102 => ⟨S4, .f32⟩
  | 103 => ⟨S1x4, .f32⟩
  | 104 => ⟨S8192x4, .f32⟩
  | 105 => ⟨S8192x4, .f32⟩
  | 106 => ⟨S_, .f32⟩
  | 107 => ⟨S4, .f32⟩
  | 108 => ⟨S4, .f32⟩
  | 109 => ⟨S4, .f32⟩
  | 110 => ⟨S1x4, .f32⟩
  | 111 => ⟨S8192x4, .f32⟩
  | 112 => ⟨S8192x4, .f32⟩
  | 113 => ⟨S1x4, .f32⟩
  | 114 => ⟨S8192x4, .f32⟩
  | 115 => ⟨S8192x4, .f32⟩
  | 116 => ⟨S1x4, .f32⟩
  | 117 => ⟨S8192x4, .f32⟩
  | 118 => ⟨S8192x4, .f32⟩
  | 119 => ⟨S8192x8, .f32⟩
  | 120 => ⟨S1x8, .f32⟩
  | 121 => ⟨S8192x8, .f32⟩
  | 122 => ⟨S8192x8, .f32⟩
  | 123 => ⟨S8192x8, .f32⟩
  | 124 => ⟨S8192x1, .f32⟩
  | 125 => ⟨S1x1, .f32⟩
  | 126 => ⟨S8192x1, .f32⟩
  | 127 => ⟨S8192x1, .f32⟩
  | _ => ⟨S8192x4096, .f32⟩

abbrev hbmTy0_1 (i : Nat) : BufTy := match i % 128 with
  | 0 => ⟨S8192, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_call0_cst : Ref sig .tc := ⟨.hbm, 27, rfl⟩
abbrev main_call0_v0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_call1_cst : Ref sig .tc := ⟨.hbm, 34, rfl⟩
abbrev main_call1_v0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_0 : Ref sig .tc := ⟨.hbm, 49, rfl⟩
abbrev main_v21 : Ref sig .tc := ⟨.hbm, 50, rfl⟩
abbrev main_cst_1 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_2 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_call2_cst : Ref sig .tc := ⟨.hbm, 68, rfl⟩
abbrev main_call2_v0 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_call3_cst : Ref sig .tc := ⟨.hbm, 75, rfl⟩
abbrev main_call3_v0 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_call4_cst : Ref sig .tc := ⟨.hbm, 82, rfl⟩
abbrev main_call4_v0 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_3 : Ref sig .tc := ⟨.hbm, 89, rfl⟩
abbrev main_v52 : Ref sig .tc := ⟨.hbm, 90, rfl⟩
abbrev main_cst_4 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_5 : Ref sig .tc := ⟨.hbm, 98, rfl⟩
abbrev main_v59 : Ref sig .tc := ⟨.hbm, 99, rfl⟩
abbrev main_cst_6 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_7 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  transposes_S8192x1_S1x8192_1_0 : S8192x1.Transposes [1, 0] S1x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  bcast_S_S8192x8 : S_.BroadcastsInDim S8192x8 (![] : Fin 0 → Fin S8192x8.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S_S8192x16 : S_.BroadcastsInDim S8192x16 (![] : Fin 0 → Fin S8192x16.rank)
  bcast_S4_S1x4_1 : S4.BroadcastsInDim S1x4 (![1] : Fin 1 → Fin S1x4.rank)
  bcast_S1x4_S8192x4_0_1 : S1x4.BroadcastsInDim S8192x4 (![0, 1] : Fin 2 → Fin S8192x4.rank)
  reducesTo_S8192x4_S4_d0 : S8192x4.ReducesTo [0] S4
  bcast_S_S4 : S_.BroadcastsInDim S4 (![] : Fin 0 → Fin S4.rank)
  shapeCasts_S8192x1_S8192 : S8192x1.ShapeCasts S8192
  dot_S8192x4096_S4096x128_S8192x128_1_0_0_1_n_n_wf : DotDims.WF S8192x4096 S4096x128 S8192x128 [1] [0] [0] [1] [] []
  dot_S8192x128_S128x64_S8192x64_1_0_0_1_n_n_wf : DotDims.WF S8192x128 S128x64 S8192x64 [1] [0] [0] [1] [] []
  dot_S8192x64_S64x1_S8192x1_1_0_0_1_n_n_wf : DotDims.WF S8192x64 S64x1 S8192x1 [1] [0] [0] [1] [] []
  dot_S8192x1_S1x1_S8192x1_1_0_0_1_n_n_wf : DotDims.WF S8192x1 S1x1 S8192x1 [1] [0] [0] [1] [] []
  dot_S8192x1_S1x8192_S8192x8192_1_0_0_1_n_n_wf : DotDims.WF S8192x1 S1x8192 S8192x8192 [1] [0] [0] [1] [] []
  dot_S8192x8192_S8192x1_S8192x1_1_0_0_1_n_n_wf : DotDims.WF S8192x8192 S8192x1 S8192x1 [1] [0] [0] [1] [] []
  dot_S8192x1_S1x8_S8192x8_1_0_0_1_n_n_wf : DotDims.WF S8192x1 S1x8 S8192x8 [1] [0] [0] [1] [] []
  dot_S8192x8_S8x16_S8192x16_1_0_0_1_n_n_wf : DotDims.WF S8192x8 S8x16 S8192x16 [1] [0] [0] [1] [] []
  dot_S8192x16_S16x64_S8192x64_1_0_0_1_n_n_wf : DotDims.WF S8192x16 S16x64 S8192x64 [1] [0] [0] [1] [] []
  dot_S8192x64_S64x4_S8192x4_1_0_0_1_n_n_wf : DotDims.WF S8192x64 S64x4 S8192x4 [1] [0] [0] [1] [] []
  dot_S8192x4_S4x8_S8192x8_1_0_0_1_n_n_wf : DotDims.WF S8192x4 S4x8 S8192x8 [1] [0] [0] [1] [] []
  dot_S8192x8_S8x1_S8192x1_1_0_0_1_n_n_wf : DotDims.WF S8192x8 S8x1 S8192x1 [1] [0] [0] [1] [] []

variable [Facts₀]

def dot_S8192x4096_S4096x128_S8192x128_1_0_0_1_n_n : DotDims S8192x4096 S4096x128 S8192x128 where
  lhsContracting := [1]
  rhsContracting := [0]
  lhsNonContracting := [0]
  rhsNonContracting := [1]
  lhsBatch := []
  rhsBatch := []
  wf := dot_S8192x4096_S4096x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S8192x1_S1x1_S8192x1_1_0_0_1_n_n : DotDims S8192x1 S1x1 S8192x1 where
  lhsContracting := [1]
  rhsContracting := [0]
  lhsNonContracting := [0]
  rhsNonContracting := [1]
  lhsBatch := []
  rhsBatch := []
  wf := dot_S8192x1_S1x1_S8192x1_1_0_0_1_n_n_wf
def dot_S8192x1_S1x8192_S8192x8192_1_0_0_1_n_n : DotDims S8192x1 S1x8192 S8192x8192 where
  lhsContracting := [1]
  rhsContracting := [0]
  lhsNonContracting := [0]
  rhsNonContracting := [1]
  lhsBatch := []
  rhsBatch := []
  wf := dot_S8192x1_S1x8192_S8192x8192_1_0_0_1_n_n_wf
def dot_S8192x8192_S8192x1_S8192x1_1_0_0_1_n_n : DotDims S8192x8192 S8192x1 S8192x1 where
  lhsContracting := [1]
  rhsContracting := [0]
  lhsNonContracting := [0]
  rhsNonContracting := [1]
  lhsBatch := []
  rhsBatch := []
  wf := dot_S8192x8192_S8192x1_S8192x1_1_0_0_1_n_n_wf
def dot_S8192x1_S1x8_S8192x8_1_0_0_1_n_n : DotDims S8192x1 S1x8 S8192x8 where
  lhsContracting := [1]
  rhsContracting := [0]
  lhsNonContracting := [0]
  rhsNonContracting := [1]
  lhsBatch := []
  rhsBatch := []
  wf := dot_S8192x1_S1x8_S8192x8_1_0_0_1_n_n_wf
def dot_S8192x8_S8x16_S8192x16_1_0_0_1_n_n : DotDims S8192x8 S8x16 S8192x16 where
  lhsContracting := [1]
  rhsContracting := [0]
  lhsNonContracting := [0]
  rhsNonContracting := [1]
  lhsBatch := []
  rhsBatch := []
  wf := dot_S8192x8_S8x16_S8192x16_1_0_0_1_n_n_wf
def dot_S8192x16_S16x64_S8192x64_1_0_0_1_n_n : DotDims S8192x16 S16x64 S8192x64 where
  lhsContracting := [1]
  rhsContracting := [0]
  lhsNonContracting := [0]
  rhsNonContracting := [1]
  lhsBatch := []
  rhsBatch := []
  wf := dot_S8192x16_S16x64_S8192x64_1_0_0_1_n_n_wf
def dot_S8192x64_S64x4_S8192x4_1_0_0_1_n_n : DotDims S8192x64 S64x4 S8192x4 where
  lhsContracting := [1]
  rhsContracting := [0]
  lhsNonContracting := [0]
  rhsNonContracting := [1]
  lhsBatch := []
  rhsBatch := []
  wf := dot_S8192x64_S64x4_S8192x4_1_0_0_1_n_n_wf
def dot_S8192x4_S4x8_S8192x8_1_0_0_1_n_n : DotDims S8192x4 S4x8 S8192x8 where
  lhsContracting := [1]
  rhsContracting := [0]
  lhsNonContracting := [0]
  rhsNonContracting := [1]
  lhsBatch := []
  rhsBatch := []
  wf := dot_S8192x4_S4x8_S8192x8_1_0_0_1_n_n_wf
def dot_S8192x8_S8x1_S8192x1_1_0_0_1_n_n : DotDims S8192x8 S8x1 S8192x1 where
  lhsContracting := [1]
  rhsContracting := [0]
  lhsNonContracting := [0]
  rhsNonContracting := [1]
  lhsBatch := []
  rhsBatch := []
  wf := dot_S8192x8_S8x1_S8192x1_1_0_0_1_n_n_wf

class Facts : Prop extends Facts₀ where

variable [Facts]
-- ==== Proof.K.Enc.lean ====
import proofs.«423507_j65481071407721_3_alg».proof.Proof.Gen.Kernel.Launch
import proofs.«423507_j65481071407721_3_alg».proof.Proof.Gen.Kernel.Skeleton
import proofs.«423507_j65481071407721_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x4096 := Rect.unit (s := S512x4096) ![0, 0] S512x4096.size inb_S512x4096_S512x4096_0_0
abbrev r0_1 : Rect S4096x128 := Rect.unit (s := S4096x128) ![0, 0] S4096x128.size inb_S4096x128_S4096x128_0_0
abbrev r0_2 : Rect S1x128 := Rect.unit (s := S1x128) ![0, 0] S1x128.size inb_S1x128_S1x128_0_0
abbrev r0_3 : Rect S128x64 := Rect.unit (s := S128x64) ![0, 0] S128x64.size inb_S128x64_S128x64_0_0
abbrev r0_4 : Rect S1x64 := Rect.unit (s := S1x64) ![0, 0] S1x64.size inb_S1x64_S1x64_0_0
abbrev r0_5 : Rect S64x1 := Rect.unit (s := S64x1) ![0, 0] S64x1.size inb_S64x1_S64x1_0_0
abbrev r0_6 : Rect S1x1 := Rect.unit (s := S1x1) ![0, 0] S1x1.size inb_S1x1_S1x1_0_0
abbrev r0_7 : Rect S512x1 := Rect.unit (s := S512x1) ![0, 0] S512x1.size inb_S512x1_S512x1_0_0

def out0_7 (x0 : Vec F S512x4096 .f32) (x1 : Vec F S4096x128 .f32) (x2 : Vec F S1x128 .f32) (x3 : Vec F S128x64 .f32)
    (x4 : Vec F S1x64 .f32) (x5 : Vec F S64x1 .f32) (x6 : Vec F S1x1 .f32) : Vec F S512x1 .f32 :=
  View.canon [⟨r0_7, k0_pay1 (View.ld x0 r0_0) (View.ld x1 r0_1) (View.ld x2 r0_2) (View.ld x3 r0_3) (View.ld x4 r0_4) (View.ld x5 r0_5) (View.ld x6 r0_6)⟩]

theorem cover0_7 (p0 : Vec F S512x1 .f32) (y : S512x1.Idx) :
    ∃ pc ∈ ([⟨r0_7, p0⟩] : List (View.Piece (Elt F) S512x1 .f32)), y ∈ pc.1.set :=
  View.cover_of_tiled [⟨r0_7, p0⟩] S512x1.size (by rfl) y

set_option maxHeartbeats 1000000 in

theorem sound_kernel0 (c : Dev nD) (E : Set ℕ) (i : grid0.Coords)
    (arg1 : Memref sig .tc .vmem S512x4096 .f32) (harg1 : arg1.IsWhole) (arg2 : Memref sig .tc .vmem S4096x128 .f32) (harg2 : arg2.IsWhole)
    (arg3 : Memref sig .tc .vmem S1x128 .f32) (harg3 : arg3.IsWhole) (arg4 : Memref sig .tc .vmem S128x64 .f32) (harg4 : arg4.IsWhole)
    (arg5 : Memref sig .tc .vmem S1x64 .f32) (harg5 : arg5.IsWhole) (arg6 : Memref sig .tc .vmem S64x1 .f32) (harg6 : arg6.IsWhole)
    (arg7 : Memref sig .tc .vmem S1x1 .f32) (harg7 : arg7.IsWhole) (arg8 : Memref sig .tc .vmem S512x1 .f32) (harg8 : arg8.IsWhole)
    (x0 : Vec F S512x4096 .f32) (x1 : Vec F S4096x128 .f32) (x2 : Vec F S1x128 .f32) (x3 : Vec F S128x64 .f32)
    (x4 : Vec F S1x64 .f32) (x5 : Vec F S64x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__encoder_kernel i arg1 harg1 arg2 harg2 arg3 harg3 arg4 harg4 arg5 harg5 arg6 harg6 arg7 harg7 arg8 harg8) K := by
  simp only [cc0__encoder_kernel_eq_skeleton]; unfold cc0__encoder_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

section
variable (c : Dev nD) (t : Fin cfg0.N)

theorem after0_0 : (dat0 V c).after 0 t = iblk0 V c 0 t := rfl
theorem after0_1 : (dat0 V c).after 1 t = iblk0 V c 1 t := rfl
theorem after0_2 : (dat0 V c).after 2 t = iblk0 V c 2 t := rfl
theorem after0_3 : (dat0 V c).after 3 t = iblk0 V c 3 t := rfl
theorem after0_4 : (dat0 V c).after 4 t = iblk0 V c 4 t := rfl
theorem after0_5 : (dat0 V c).after 5 t = iblk0 V c 5 t := rfl
theorem after0_6 : (dat0 V c).after 6 t = iblk0 V c 6 t := rfl
theorem after0_7 : (dat0 V c).after 7 t
    = out0_7 (iblk0 V c 0 t) (iblk0 V c 1 t) (iblk0 V c 2 t) (iblk0 V c 3 t) (iblk0 V c 4 t) (iblk0 V c 5 t) (iblk0 V c 6 t) := rfl

theorem before0_0 (d) : (dat0 V c).before 0 t d = iblk0 V c 0 t :=
  ((dat0 V c).before_in_eq_fetched 0 rfl (fun _ => rfl) (fun _ _ _ => rfl) (fun _ => rfl) t d).trans rfl
theorem before0_1 (d) : (dat0 V c).before 1 t d = iblk0 V c 1 t :=
  ((dat0 V c).before_in_eq_fetched 1 rfl (fun _ => rfl) (fun _ _ _ => rfl) (fun _ => rfl) t d).trans rfl
theorem before0_2 (d) : (dat0 V c).before 2 t d = iblk0 V c 2 t :=
  ((dat0 V c).before_in_eq_fetched 2 rfl (fun _ => rfl) (fun _ _ _ => rfl) (fun _ => rfl) t d).trans rfl
theorem before0_3 (d) : (dat0 V c).before 3 t d = iblk0 V c 3 t :=
  ((dat0 V c).before_in_eq_fetched 3 rfl (fun _ => rfl) (fun _ _ _ => rfl) (fun _ => rfl) t d).trans rfl
theorem before0_4 (d) : (dat0 V c).before 4 t d = iblk0 V c 4 t :=
  ((dat0 V c).before_in_eq_fetched 4 rfl (fun _ => rfl) (fun _ _ _ => rfl) (fun _ => rfl) t d).trans rfl
theorem before0_5 (d) : (dat0 V c).before 5 t d = iblk0 V c 5 t :=
  ((dat0 V c).before_in_eq_fetched 5 rfl (fun _ => rfl) (fun _ _ _ => rfl) (fun _ => rfl) t d).trans rfl
theorem before0_6 (d) : (dat0 V c).before 6 t d = iblk0 V c 6 t :=
  ((dat0 V c).before_in_eq_fetched 6 rfl (fun _ => rfl) (fun _ _ _ => rfl) (fun _ => rfl) t d).trans rfl

end

set_option maxHeartbeats 1000000 in

theorem body_obligation0 (c : Dev nD) : BodyObligation (dat0 (F := F) V c) (defs₀ (F := F)) Variants.none () Set.univ := fun t => by
  rw [bigSep_W0, bigSep_W0]
  show _ ⊢ wp frame (wpE (defs₀ (F := F)) Variants.none c none) Set.univ (bodyAt0 t) _
  unfold bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  iframe
  isplitl [H7]; · iexists _; iexact H7
  iintro ⟨H0, H1, H2, H3, H4, H5, H6, H7⟩
  iframe

end Cert.Kernel.Fr

end
-- ==== Proof.K.AttnDefs.lean ====
import proofs.«423507_j65481071407721_3_alg».proof.Proof.Gen.Kernel.Launch
import proofs.«423507_j65481071407721_3_alg».proof.Proof.Gen.Kernel.Skeleton
import proofs.«423507_j65481071407721_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Regions

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1

theorem hcond1_1 : ∀ t : Fin cfg1.N, cond1_1 (grid1.coords t) ↔ t.val % 8 = 7 :=
  (by decide +kernel : ∀ t : Fin grid1.N, cond1_1 (grid1.coords t) ↔ t.val % 8 = 7)

theorem idleAt1_4_A : ∀ t : Fin cfg1.N, cond1_0 (grid1.coords t) → ¬cond1_1 (grid1.coords t) → cfg1.idle 4 (grid1.coords t) = true := by decide +kernel

theorem noFlush1_4_A : ∀ t : Fin cfg1.N, cond1_0 (grid1.coords t) → ¬cond1_1 (grid1.coords t) → (cfg1.win 4).flush t = false := by decide +kernel

theorem idleAt1_4_B : ∀ t : Fin cfg1.N, ¬cond1_0 (grid1.coords t) → ¬cond1_1 (grid1.coords t) → cfg1.idle 4 (grid1.coords t) = true := by decide +kernel

theorem noFlush1_4_B : ∀ t : Fin cfg1.N, ¬cond1_0 (grid1.coords t) → ¬cond1_1 (grid1.coords t) → (cfg1.win 4).flush t = false := by decide +kernel

theorem liveAt1_4_C : ∀ t : Fin cfg1.N, ¬cond1_0 (grid1.coords t) → cond1_1 (grid1.coords t) → cfg1.idle 4 (grid1.coords t) = false := by decide +kernel

abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)

abbrev scM1_0 : Memref sig .tc .vmem S1024x1 .f32 := Memref.whole cc1_scratch0
abbrev scM1_1 : Memref sig .tc .vmem S1024x1 .f32 := Memref.whole cc1_scratch1

abbrev VS1_0 : View sig .tc .vmem S1024x1 .f32 := scM1_0.view

def others1 (c : Dev nD) : sProp 𝕄 :=
  iprop((∃ f, ((c : Thread nD τ).loc cc0_stg0_0) ↦{fullShare} f)
    ∗ (∃ f, ((c : Thread nD τ).loc cc0_stg0_1) ↦{fullShare} f)
    ∗ (∃ f, ((c : Thread nD τ).loc cc0_stg1_0) ↦{fullShare} f)
    ∗ (∃ f, ((c : Thread nD τ).loc cc0_stg2_0) ↦{fullShare} f)
    ∗ (∃ f, ((c : Thread nD τ).loc cc0_stg3_0) ↦{fullShare} f)
    ∗ (∃ f, ((c : Thread nD τ).loc cc0_stg4_0) ↦{fullShare} f)
    ∗ (∃ f, ((c : Thread nD τ).loc cc0_stg5_0) ↦{fullShare} f)
    ∗ (∃ f, ((c : Thread nD τ).loc cc0_stg6_0) ↦{fullShare} f)
    ∗ (∃ f, ((c : Thread nD τ).loc cc0_stg7_0) ↦{fullShare} f)
    ∗ (∃ f, ((c : Thread nD τ).loc cc0_stg7_1) ↦{fullShare} f))

theorem PhiA1_eq (c : Dev nD) :
    (Pipeline.ΦA spec1 c : sProp 𝕄)
      = iprop(iprop(others1 c ∗ (∃ d, owns (c : Thread nD τ) scM1_0 fullShare d) ∗ (∃ d, owns (c : Thread nD τ) scM1_1 fullShare d)) ∗ (∃ r, prngReg c r)) := by
  unfold Pipeline.ΦA; rw [scopedRest1_eq]; unfold others1; simp only [scM1_0, scM1_1, owns_whole]
  refine Idealize.SL.BI.Entails.antisymm (show BIBase.Entails (PROP := sProp 𝕄) _ _ from ?_) (show BIBase.Entails (PROP := sProp 𝕄) _ _ from ?_)
  · iintro ⟨⟨R0, R1, R2, R3, R4, R5, R6, R7, R8, R9, HS0, HS1⟩, Hg⟩
    isplitr [Hg]
    · isplitr [HS0 HS1]
      · iframe
      · iframe
    · iexact Hg
  · iintro ⟨⟨⟨R0, R1, R2, R3, R4, R5, R6, R7, R8, R9⟩, HS0, HS1⟩, Hg⟩
    isplitr [Hg]
    · iframe
    · iexact Hg

end Cert.Kernel.Fr

end
-- ==== Proof.K.AttnRun.lean ====
import proofs.«423507_j65481071407721_3_alg».proof.Proof.K.AttnDefs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg2 : Memref sig .tc .vmem S1024x1 .f32) (harg2 : arg2.IsWhole) (arg3 : Memref sig .tc .vmem S1x1024 .f32) (harg3 : arg3.IsWhole)
  (arg4 : Memref sig .tc .vmem S1x1024 .f32) (harg4 : arg4.IsWhole) (arg5 : Memref sig .tc .vmem S1024x1 .f32) (harg5 : arg5.IsWhole)
  (arg6 : Memref sig .tc .vmem S1024x1 .f32) (harg6 : arg6.IsWhole) (arg7 : Memref sig .tc .vmem S1024x1 .f32) (harg7 : arg7.IsWhole)
  (arg8 : Memref sig .tc .vmem S1024x1 .f32) (harg8 : arg8.IsWhole)

set_option maxHeartbeats 1000000 in

noncomputable def kernelRun1_A (hc0 : cond1_0 i) (hc1 : ¬cond1_1 i)
    (x0 : Vec F S1024x1 .f32) (x1 : Vec F S1x1024 .f32) (x2 : Vec F S1x1024 .f32) (x3 : Vec F S1024x1 .f32) :
    Σ' (L4 : List (View.Piece (Elt F) S1024x1 .f32)) (LS0 : List (View.Piece (Elt F) S1024x1 .f32)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 1000000 in

noncomputable def kernelRun1_B (hc0 : ¬cond1_0 i) (hc1 : ¬cond1_1 i)
    (x0 : Vec F S1024x1 .f32) (x1 : Vec F S1x1024 .f32) (x2 : Vec F S1x1024 .f32) (x3 : Vec F S1024x1 .f32) (xs0 : Vec F S1024x1 .f32) (xs1 : Vec F S1024x1 .f32) :
    Σ' (L4 : List (View.Piece (Elt F) S1024x1 .f32)) (LS0 : List (View.Piece (Elt F) S1024x1 .f32)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 1000000 in

noncomputable def kernelRun1_C (hc0 : ¬cond1_0 i) (hc1 : cond1_1 i)
    (x0 : Vec F S1024x1 .f32) (x1 : Vec F S1x1024 .f32) (x2 : Vec F S1x1024 .f32) (x3 : Vec F S1024x1 .f32) (xs0 : Vec F S1024x1 .f32) (xs1 : Vec F S1024x1 .f32) :
    Σ' (L4 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.Kernel.Fr

end
-- ==== Proof.K.Attn.lean ====
import proofs.«423507_j65481071407721_3_alg».proof.Proof.K.AttnRun

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What a grid point leaves: the output block, the denominator and the numerator accumulators.
abbrev Trip (F : FTy → Type) := Vec F S1024x1 .f32 × Vec F S1024x1 .f32 × Vec F S1024x1 .f32

-- What a list of stores leaves in a buffer of that shape, read back over arbitrary prior contents.
def rd (L : List (View.Piece (Elt F) S1024x1 .f32)) : Vec F S1024x1 .f32 :=
  VS1_0.read (Elt F) (VS1_0.writes (Elt F) VS1_0.junk L)

-- The three buffers as a case's run leaves them.
def can3 {P : List (View.Piece (Elt F) S1024x1 .f32) → List (View.Piece (Elt F) S1024x1 .f32) → List (View.Piece (Elt F) S1024x1 .f32) → Prop}
    (r : Σ' L4 LS0, { LS1 // P L4 LS0 LS1 }) : Trip F :=
  (rd r.1, rd r.2.1, rd r.2.2.1)

section Regions
variable (V : (c : Dev nD) → (b : Ref sig .tc) → Buf (Elt F) ((c : Thread nD τ).loc b))

-- The body's run at point t in each case: A, the first point of a sweep (both accumulators reset);
abbrev runA (c : Dev nD) (t : Fin cfg1.N) (h0 : t.val % 8 = 0) :=
  kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => by have := (hcond1_1 t).mp h; omega) (iblk1 V c 0 t) (iblk1 V c 1 t) (iblk1 V c 2 t) (iblk1 V c 3 t)

-- B, an inner point (it adds to the accumulators p of the point before);
abbrev runB (c : Dev nD) (t : Fin cfg1.N) (h0 : ¬t.val % 8 = 0) (h1 : ¬t.val % 8 = 7) (p : Trip F) :=
  kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (mt (hcond1_0 t).mp h0) (mt (hcond1_1 t).mp h1) (iblk1 V c 0 t) (iblk1 V c 1 t) (iblk1 V c 2 t) (iblk1 V c 3 t) p.2.1 p.2.2

-- C, the last point of a sweep (it adds, then stores the quotient).
abbrev runC (c : Dev nD) (t : Fin cfg1.N) (h0 : ¬t.val % 8 = 0) (h1 : t.val % 8 = 7) (p : Trip F) :=
  kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (mt (hcond1_0 t).mp h0) ((hcond1_1 t).mpr h1) (iblk1 V c 0 t) (iblk1 V c 1 t) (iblk1 V c 2 t) (iblk1 V c 3 t) p.2.1 p.2.2

-- Along the grid: a point whose inner coordinate is 0 starts afresh, any other continues from the point before.
def outsAt1 (c : Dev nD) : (n : ℕ) → n < cfg1.N → Trip F
  | 0, hn => can3 (runA V c ⟨0, hn⟩ rfl)
  | n + 1, hn =>
    if h0 : (n + 1) % 8 = 0 then can3 (runA V c ⟨n + 1, hn⟩ h0)
    else if h1 : (n + 1) % 8 = 7 then can3 (runC V c ⟨n + 1, hn⟩ h0 h1 (outsAt1 c n (Nat.lt_of_succ_lt hn)))
    else can3 (runB V c ⟨n + 1, hn⟩ h0 h1 (outsAt1 c n (Nat.lt_of_succ_lt hn)))

theorem outsAt1_A (c : Dev nD) (t : Fin cfg1.N) (h0 : t.val % 8 = 0) : outsAt1 V c t.val t.isLt = can3 (runA V c t h0) := by
  obtain ⟨_ | n, hn⟩ := t
  · rfl
  · exact dif_pos h0

theorem outsAt1_B (c : Dev nD) (t : Fin cfg1.N) (h0 : ¬t.val % 8 = 0) (h1 : ¬t.val % 8 = 7) :
    outsAt1 V c t.val t.isLt = can3 (runB V c t h0 h1 (outsAt1 V c (t.val - 1) (by omega))) := by
  obtain ⟨_ | n, hn⟩ := t
  · exact absurd rfl h0
  · exact (dif_neg h0).trans (dif_neg h1)

theorem outsAt1_C (c : Dev nD) (t : Fin cfg1.N) (h0 : ¬t.val % 8 = 0) (h1 : t.val % 8 = 7) :
    outsAt1 V c t.val t.isLt = can3 (runC V c t h0 h1 (outsAt1 V c (t.val - 1) (by omega))) := by
  obtain ⟨_ | n, hn⟩ := t
  · exact absurd rfl h0
  · exact (dif_neg h0).trans (dif_pos h1)

-- The invariant after a point that left p: the accumulators hold p's two sums.
def inv1 (c : Dev nD) (p : Trip F) : sProp 𝕄 :=
  iprop(iprop(others1 c ∗ owns (c : Thread nD τ) scM1_0 fullShare p.2.1 ∗ owns (c : Thread nD τ) scM1_1 fullShare p.2.2) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := if h : t.val = 0 then Pipeline.ΦA spec1 c else inv1 c (outsAt1 V c (t.val - 1) (by omega))
  q _ := fullShare
  owed _ := 0

theorem A_eq1 (c : Dev nD) (w : Fin cfg1.W) : (dat1 V c).A w = V c (Pipeline.arrRef spec1 w) := rfl

theorem after1_4 (c : Dev nD) (t : Fin cfg1.N) : (dat1 V c).after 4 t = (outsAt1 V c t.val t.isLt).1 := rfl

-- At every point the invariant gives both accumulators at some contents.
theorem Phi_weak (c : Dev nD) (t : Fin (cfg1.N + 1)) :
    (dat1 V c).Φ t ⊢ iprop(iprop(others1 c ∗ (∃ d, owns (c : Thread nD τ) scM1_0 fullShare d) ∗ (∃ d, owns (c : Thread nD τ) scM1_1 fullShare d)) ∗ (∃ r, prngReg c r)) := by
  by_cases hz : t.val = 0
  · rw [show (dat1 V c).Φ t = _ from dif_pos hz, PhiA1_eq]
  · rw [show (dat1 V c).Φ t = _ from dif_neg hz]
    unfold inv1
    iintro ⟨⟨HR, HS0, HS1⟩, Hg⟩
    isplitr [Hg]
    · isplitl [HR]; · iexact HR
      isplitl [HS0]; · iexists _; iexact HS0
      iexists _; iexact HS1
    · iexact Hg

theorem before1 (c : Dev nD) (t : Fin cfg1.N) : ∀ w : Fin cfg1.W, w ≠ 4 → ∀ d, (dat1 V c).before w t d = (dat1 V c).fetched w t d
  | ⟨0, _⟩, _, d | ⟨1, _⟩, _, d | ⟨2, _⟩, _, d | ⟨3, _⟩, _, d =>
    (dat1 V c).before_in_eq_fetched _ rfl (fun _ => rfl) (fun _ _ _ => rfl) (fun _ => rfl) t d
  | ⟨4, _⟩, h, _ => absurd rfl h

-- One run of the body takes the invariant from a point to the next; the stores into each accumulator tile it.
theorem body_obligation1 (c : Dev nD) : BodyObligation (dat1 (F := F) V c) (defs₀ (F := F)) Variants.none () Set.univ := fun t => by
  rw [bigSep_W1, bigSep_W1]
  dsimp only
  simp only [before1 V c t 0 (by decide), before1 V c t 1 (by decide), before1 V c t 2 (by decide), before1 V c t 3 (by decide)]
  rw [show (dat1 V c).Φ t.succ = inv1 c (outsAt1 V c t.val t.isLt) from rfl]
  have hc0 := hcond1_0 t
  have hc1 := hcond1_1 t
  by_cases h0 : t.val % 8 = 0
  · have h1 : ¬t.val % 8 = 7 := by omega
    rw [show idle1 4 (grid1.coords t) = true from idleAt1_4_A t (hc0.mpr h0) (mt hc1.mp h1), show (win1 4).flush t = false from noFlush1_4_A t (hc0.mpr h0) (mt hc1.mp h1), outsAt1_A V c t h0]
    unfold inv1 can3 rd; dsimp only
    iintro ⟨HP, Ho, ⟨%d0, H0⟩, ⟨%d1, H1⟩, ⟨%d2, H2⟩, ⟨%d3, H3⟩, ⟨%d4, H4⟩⟩
    ihave ⟨⟨HR, HS0, HS1⟩, Hg⟩ := (Phi_weak V c _) $$ HP
    iapply (runA V c t h0).2.2.2 _ Set.univ _
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HR HS0 HS1 Hg]
    · isplitr [Hg]
      · isplitl [HR]; · iexact HR
        isplitl [HS0]
        · iapply (Ring.owns_of_writes_tiledL VS1_0 S1024x1.size) $$ HS0; ipureintro; sl_kernel_rfl
        · iapply (Ring.owns_of_writes_tiledL VS1_0 S1024x1.size) $$ HS1; ipureintro; sl_kernel_rfl
      · iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun e => h0 (by rw [e])
    rw [show (dat1 V c).Φ t.castSucc = inv1 c (outsAt1 V c (t.val - 1) (by omega)) from dif_neg hz]
    unfold inv1
    by_cases h1 : t.val % 8 = 7
    · rw [show idle1 4 (grid1.coords t) = false from liveAt1_4_C t (mt hc0.mp h0) (hc1.mpr h1), after1_4, outsAt1_C V c t h0 h1]; unfold can3 rd; dsimp only
      iintro ⟨⟨⟨HR, HS0, HS1⟩, Hg⟩, Ho, ⟨%d0, H0⟩, ⟨%d1, H1⟩, ⟨%d2, H2⟩, ⟨%d3, H3⟩, ⟨%d4, H4⟩⟩
      iapply (runC V c t h0 h1 _).2.2.2 Set.univ _
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HR HS0 HS1 Hg]
      · isplitr [Hg]
        · isplitl [HR]; · iexact HR
          isplitl [HS0]
          · iapply (Ring.owns_of_writes_tiledL VS1_0 S1024x1.size) $$ HS0; ipureintro; sl_kernel_rfl
          · iapply (Ring.owns_of_writes_tiledL VS1_0 S1024x1.size) $$ HS1; ipureintro; sl_kernel_rfl
        · iexact Hg
      isplitl [Ho]; · iexact Ho
      isplitl [H0]; · iexact H0
      isplitl [H1]; · iexact H1
      isplitl [H2]; · iexact H2
      isplitl [H3]; · iexact H3
      iapply (Ring.owns_of_writes_tiledL VS1_0 S1024x1.size) $$ H4; ipureintro; sl_kernel_rfl
    · rw [show idle1 4 (grid1.coords t) = true from idleAt1_4_B t (mt hc0.mp h0) (mt hc1.mp h1), show (win1 4).flush t = false from noFlush1_4_B t (mt hc0.mp h0) (mt hc1.mp h1), outsAt1_B V c t h0 h1]; unfold can3 rd; dsimp only
      iintro ⟨⟨⟨HR, HS0, HS1⟩, Hg⟩, Ho, ⟨%d0, H0⟩, ⟨%d1, H1⟩, ⟨%d2, H2⟩, ⟨%d3, H3⟩, ⟨%d4, H4⟩⟩
      iapply (runB V c t h0 h1 _).2.2.2 _ Set.univ _
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HR HS0 HS1 Hg]
      · isplitr [Hg]
        · isplitl [HR]; · iexact HR
          isplitl [HS0]
          · iapply (Ring.owns_of_writes_tiledL VS1_0 S1024x1.size) $$ HS0; ipureintro; sl_kernel_rfl
          · iapply (Ring.owns_of_writes_tiledL VS1_0 S1024x1.size) $$ HS1; ipureintro; sl_kernel_rfl
        · iexact Hg
      isplitl [Ho]; · iexact Ho
      isplitl [H0]; · iexact H0
      isplitl [H1]; · iexact H1
      isplitl [H2]; · iexact H2
      isplitl [H3]; · iexact H3
      iexists _; iexact H4

theorem hin1 (c : Dev nD) : Pipeline.ΦA spec1 c ⊢ (dat1 V c).Φ 0 := by
  rw [show (dat1 V c).Φ 0 = Pipeline.ΦA spec1 c from rfl]

theorem hout1 (c : Dev nD) : (dat1 V c).Φ (Fin.last cfg1.N) ⊢ Pipeline.ΦA spec1 c := by
  rw [PhiA1_eq]; exact Phi_weak V c _

end Regions

end Cert.Kernel.Fr

end
-- ==== Proof.K.Run.lean ====
import proofs.«423507_j65481071407721_3_alg».proof.Proof.Gen.Kernel.Regions
import proofs.«423507_j65481071407721_3_alg».proof.Proof.K.Enc
import proofs.«423507_j65481071407721_3_alg».proof.Proof.K.Attn

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

abbrev Vr1 (c : Dev nD) (b : Ref sig .tc) : Buf (Elt F) ((c : Thread nD τ).loc b) := Gen.V1 m c b

abbrev Vr2 (outs : Outs (F := F)) (c : Dev nD) (b : Ref sig .tc) : Buf (Elt F) ((c : Thread nD τ).loc b) := Gen.V2 m outs c b

abbrev Vr4 (outs : Outs (F := F)) (c : Dev nD) (b : Ref sig .tc) : Buf (Elt F) ((c : Thread nD τ).loc b) := Gen.V4 m outs c b

abbrev Vr5 (outs : Outs (F := F)) (c : Dev nD) (b : Ref sig .tc) : Buf (Elt F) ((c : Thread nD τ).loc b) := Gen.V5 m outs c b

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c

section Records

variable (outs : Outs (F := F))

def pdats : (p : Fin 2) → (c : Dev nD) → Dat τ (Elt F) Unit ℕ (UR sig nD τ) ℕ (cfgs p) c
  | ⟨0, _⟩ => fun c => dat0 (Vr1 m) c
  | ⟨1, _⟩ => fun c => dat1 (Vr4 m outs) c

variable (h2 : ∀ c, outs 2 main_v3 c = (dat0 (Vr1 m) c).arrAt 7 cfg0.N)
variable (h5 : ∀ c, outs 5 main_v23 c = (dat1 (Vr4 m outs) c).arrAt 4 cfg1.N)

include h2 in

theorem hF0 (c : Dev nD) (w : Fin cfg0.W) : (dat0 (Vr1 m) c).arrAt w cfg0.N = Vr2 m outs c (Pipeline.arrRef spec0 w) := by
  by_cases hw : w = 7
  · subst hw; exact (h2 c).symm.trans (by simp only [Gen.V2, Function.update_self])
  · exact ((dat0 (Vr1 m) c).arrAt_in w ((by decide : ∀ w : Fin cfg0.W, w ≠ 7 → (cfg0.win w).isOut = false) w hw) _).trans
      ((A_eq0 (Vr1 m) c w).trans (Gen.V2_of m outs c _
        ((by decide : ∀ w : Fin cfg0.W, w ≠ 7 → Pipeline.arrRef spec0 w ∉ [main_v3]) w hw)).symm)

theorem hrest0 (c : Dev nD) : ∀ b, b ∉ Finset.univ.image (Pipeline.arrRef spec0) → Vr2 m outs c b = Vr1 m c b :=
  fun b hb => Gen.V2_of m outs c b fun hm => hb (Finset.mem_image.mpr ⟨7, Finset.mem_univ _, (List.mem_singleton.mp hm).symm⟩)

include h5 in

theorem hF1 (c : Dev nD) (w : Fin cfg1.W) : (dat1 (Vr4 m outs) c).arrAt w cfg1.N = Vr5 m outs c (Pipeline.arrRef spec1 w) := by
  by_cases hw : w = 4
  · subst hw; exact (h5 c).symm.trans (by simp only [Gen.V5, Function.update_self])
  · exact ((dat1 (Vr4 m outs) c).arrAt_in w ((by decide : ∀ w : Fin cfg1.W, w ≠ 4 → (cfg1.win w).isOut = false) w hw) _).trans
      ((A_eq1 (Vr4 m outs) c w).trans (Gen.V5_of m outs c _
        ((by decide : ∀ w : Fin cfg1.W, w ≠ 4 → Pipeline.arrRef spec1 w ∉ [main_v23]) w hw)).symm)

theorem hrest1 (c : Dev nD) : ∀ b, b ∉ Finset.univ.image (Pipeline.arrRef spec1) → Vr5 m outs c b = Vr4 m outs c b :=
  fun b hb => Gen.V5_of m outs c b fun hm => hb (Finset.mem_image.mpr ⟨4, Finset.mem_univ _, (List.mem_singleton.mp hm).symm⟩)

set_option backward.isDefEq.respectTransparency.types false in

def reg0 : Pipeline.RegionSeg (pcfgs (F := F)) Gen.adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m outs c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) Gen.adm (pdats m outs) launch0.win launch0.arr_whole c
      ((pdats m outs 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m outs) ((pdats m outs 0 c).share_full fun _ => rfl)
      (Vr1 m c) (Vr2 m outs c) ((pdats m outs 0 c).arrAt · cfg0.N) (hF0 m outs h2 c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) Gen.adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr4 m outs) c).loose
  hwaits := Pipeline.hwaits_of_owed_zero _ _ _ _ L lv 1 fun _ _ => rfl
  pre c := iprop(StableHlo.held (c : Thread nD τ) (Pipeline.ucRefs τ sig) (Gen.V4 m outs c) ∗ R c)
  post c := iprop(StableHlo.held (c : Thread nD τ) (Pipeline.ucRefs τ sig) (Gen.V5 m outs c) ∗ R c)
  X c := iprop(∃ r, prngReg c r)
  Y c := iprop(∃ r, prngReg c r)
  Z c := Pipeline.unscopedRest (Ix := Unit) (Name := ℕ) (U := UR sig nD τ) (Lvl := ℕ) spec1 c (Vr4 m outs c)
  hentry c := by
    rw [Pipeline.ownSems0_none]
    have hsplit := Pipeline.arrays_of_unscopedBufs (p := 1) (pcfgs (F := F)) Gen.adm (pdats m outs) launch1.win launch1.arr_whole c
      ((pdats m outs 1 c).share_full fun _ => rfl) (Vr4 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Vr4 m outs) c)
    unfold Pipeline.ΦA
    iintro ⟨Hp, -, Hr⟩
    isplitl [Hr]; · iexact Hr
    iexact Hp
  hout c := by
    rw [Pipeline.ownSems0_none]
    refine (hout1 (Vr4 m outs) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m outs) ((pdats m outs 1 c).share_full fun _ => rfl)
      (Vr4 m outs c) (Vr5 m outs c) ((pdats m outs 1 c).arrAt · cfg1.N) (hF1 m outs h5 c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include h2 h5 in
set_option backward.isDefEq.respectTransparency.types false in

theorem run_all :
    θ_run defs (onTc (τ := τ) (main (F := F))) ⟨m, fun _ => 0, ρ⟩ (fun r => ∀ c : Dev nD,
      ∀ b ∈ Pipeline.ucRefs τ sig, r.2.mem ((c : Thread nD τ).1, b) = Gen.V12 m outs c b) := by
  refine Pipeline.θ_run_regions_kit_dev (pcfgs (F := F)) Gen.adm (pdats m outs) () cellOf_inj emb₁ defs₀ 𝒱₀ L lv m ρ main
    (Gen.segs m outs 𝒱₀ L lv E () (pdats m outs) (reg0 m outs h2) (reg1 m outs h5))
    (fun c Q => by
      rewrite [main_chain c, Seg.run_eq_chain,
        show (Gen.segs m outs 𝒱₀ L lv E () (pdats m outs) (reg0 m outs h2) (reg1 m outs h5) c).map Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6 ] from rfl]
      exact .rfl)
    (fun c => by simp only [Gen.segs, Seg.pipes_host, Seg.pipes_region, Seg.pipes_nil]; decide) (O₀ := 0) (hL := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V12 m outs c))
    (hch := fun c => ⟨.rfl, .rfl, .rfl, .rfl, .rfl, .rfl, .rfl, .rfl, .rfl, .rfl, .rfl, .rfl, sep_mono .rfl (by
      iintro ⟨-, HO⟩; iexact HO)⟩)
    (hinit := ?_)
    (QY := fun c s => ∀ b ∈ Pipeline.ucRefs τ sig, s.mem ((c : Thread nD τ).1, b) = Gen.V12 m outs c b)
    (hfin := fun c s' => ?_) (hQ := fun _ h => h)
  ·
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    ihave Hr := (pointsTo_read_all (Pipeline.ucRefs τ sig) (fun b => ((c : Thread nD τ).1, b)) (Gen.V12 m outs c) s') $$ [Hh HSI]
    · isplitl [Hh] <;> iassumption
    icases Hr with ⟨%h, HSI⟩
    imodintro
    isplitr
    · ipureintro; exact h
    · iexact HSI

end Records

def outsA : Outs (F := F) := fun _ r c =>
  Pipeline.withArrays spec0 c (Gen.V1 m c) (fun w => (dat0 (Vr1 m) c).arrAt w cfg0.N) (Proc.devRef .tc r)

def outs : Outs (F := F) := fun j r c =>
  if j = 5 then
    Pipeline.withArrays spec1 c (Gen.V4 m (outsA m) c) (fun w => (dat1 (Vr4 m (outsA m)) c).arrAt w cfg1.N) (Proc.devRef .tc r)
  else outsA m j r c

theorem outs_two (c : Dev nD) : outs m 2 main_v3 c = outsA m 2 main_v3 c := by
  unfold outs; exact if_neg (by decide)

theorem outs_h2 (c : Dev nD) : outs m 2 main_v3 c = (dat0 (Vr1 m) c).arrAt 7 cfg0.N := by
  rw [outs_two]; unfold outsA
  exact Pipeline.withArrays_arr spec0 launch0.win.arr_inj c _ _ 7

theorem Vr4_outs : Vr4 m (outs m) = Vr4 m (outsA m) :=
  funext fun c => funext fun b => by
    show StableHlo.after hostOps1_1 (StableHlo.after hostOps1 (Function.update (Gen.V1 m c) _ (outs m 2 main_v3 c))) b
      = StableHlo.after hostOps1_1 (StableHlo.after hostOps1 (Function.update (Gen.V1 m c) _ (outsA m 2 main_v3 c))) b
    rw [outs_two]

theorem outs_h5 (c : Dev nD) : outs m 5 main_v23 c = (dat1 (Vr4 m (outs m)) c).arrAt 4 cfg1.N := by
  rw [Vr4_outs]; unfold outs; rw [if_pos rfl]
  exact Pipeline.withArrays_arr spec1 launch1.win.arr_inj c _ _ 4

-- the program runs to the end, and every array it holds ends at its final contents
theorem run : θ_run defs (onTc (τ := τ) (main (F := F))) ⟨m, fun _ => 0, ρ⟩ (fun r => ∀ c : Dev nD,
      ∀ b ∈ Pipeline.ucRefs τ sig, r.2.mem ((c : Thread nD τ).1, b) = Gen.V12 m (outs m) c b) :=
  run_all m ρ (outs m) (outs_h2 m) (outs_h5 m)

-- one array's final contents, read off such an end state
theorem final_at {mem : (ℓ : Loc nD τ sig) → Buf (Elt F) ℓ} {c : Dev nD}
    (h : ∀ b ∈ Pipeline.ucRefs τ sig, mem ((c : Thread nD τ).1, b) = Gen.V12 m (outs m) c b) (b : Ref sig .tc)
    (hb : ¬(Proc.devRef .tc b : DevRef τ sig).isScoped) {x} (e : Gen.V12 m (outs m) c b = x) :
    mem ((c.tc : Thread nD τ).loc b) = x :=
  (h _ (mem_uc b hb)).trans e

end Cert.Kernel.Fr

end
-- ==== Proof.KI.Enc.lean ====
import proofs.«423507_j65481071407721_3_alg».proof.Proof.Gen.KernelIdeal.Launch
import proofs.«423507_j65481071407721_3_alg».proof.Proof.Gen.KernelIdeal.Skeleton
import proofs.«423507_j65481071407721_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x4096 := Rect.unit (s := S512x4096) ![0, 0] S512x4096.size inb_S512x4096_S512x4096_0_0
abbrev r0_1 : Rect S4096x128 := Rect.unit (s := S4096x128) ![0, 0] S4096x128.size inb_S4096x128_S4096x128_0_0
abbrev r0_2 : Rect S1x128 := Rect.unit (s := S1x128) ![0, 0] S1x128.size inb_S1x128_S1x128_0_0
abbrev r0_3 : Rect S128x64 := Rect.unit (s := S128x64) ![0, 0] S128x64.size inb_S128x64_S128x64_0_0
abbrev r0_4 : Rect S1x64 := Rect.unit (s := S1x64) ![0, 0] S1x64.size inb_S1x64_S1x64_0_0
abbrev r0_5 : Rect S64x1 := Rect.unit (s := S64x1) ![0, 0] S64x1.size inb_S64x1_S64x1_0_0
abbrev r0_6 : Rect S1x1 := Rect.unit (s := S1x1) ![0, 0] S1x1.size inb_S1x1_S1x1_0_0
abbrev r0_7 : Rect S512x1 := Rect.unit (s := S512x1) ![0, 0] S512x1.size inb_S512x1_S512x1_0_0

def out0_7 (x0 : Vec F S512x4096 .f32) (x1 : Vec F S4096x128 .f32) (x2 : Vec F S1x128 .f32) (x3 : Vec F S128x64 .f32)
    (x4 : Vec F S1x64 .f32) (x5 : Vec F S64x1 .f32) (x6 : Vec F S1x1 .f32) : Vec F S512x1 .f32 :=
  View.canon [⟨r0_7, k0_pay1 (View.ld x0 r0_0) (View.ld x1 r0_1) (View.ld x2 r0_2) (View.ld x3 r0_3) (View.ld x4 r0_4) (View.ld x5 r0_5) (View.ld x6 r0_6)⟩]

theorem cover0_7 (p0 : Vec F S512x1 .f32) (y : S512x1.Idx) :
    ∃ pc ∈ ([⟨r0_7, p0⟩] : List (View.Piece (Elt F) S512x1 .f32)), y ∈ pc.1.set :=
  View.cover_of_tiled [⟨r0_7, p0⟩] S512x1.size (by rfl) y

set_option maxHeartbeats 1000000 in

theorem sound_kernel0 (c : Dev nD) (E : Set ℕ) (i : grid0.Coords)
    (arg1 : Memref sig .tc .vmem S512x4096 .f32) (harg1 : arg1.IsWhole) (arg2 : Memref sig .tc .vmem S4096x128 .f32) (harg2 : arg2.IsWhole)
    (arg3 : Memref sig .tc .vmem S1x128 .f32) (harg3 : arg3.IsWhole) (arg4 : Memref sig .tc .vmem S128x64 .f32) (harg4 : arg4.IsWhole)
    (arg5 : Memref sig .tc .vmem S1x64 .f32) (harg5 : arg5.IsWhole) (arg6 : Memref sig .tc .vmem S64x1 .f32) (harg6 : arg6.IsWhole)
    (arg7 : Memref sig .tc .vmem S1x1 .f32) (harg7 : arg7.IsWhole) (arg8 : Memref sig .tc .vmem S512x1 .f32) (harg8 : arg8.IsWhole)
    (x0 : Vec F S512x4096 .f32) (x1 : Vec F S4096x128 .f32) (x2 : Vec F S1x128 .f32) (x3 : Vec F S128x64 .f32)
    (x4 : Vec F S1x64 .f32) (x5 : Vec F S64x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__encoder_kernel i arg1 harg1 arg2 harg2 arg3 harg3 arg4 harg4 arg5 harg5 arg6 harg6 arg7 harg7 arg8 harg8) K := by
  simp only [cc0__encoder_kernel_eq_skeleton]; unfold cc0__encoder_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

section
variable (c : Dev nD) (t : Fin cfg0.N)

theorem after0_0 : (dat0 V c).after 0 t = iblk0 V c 0 t := rfl
theorem after0_1 : (dat0 V c).after 1 t = iblk0 V c 1 t := rfl
theorem after0_2 : (dat0 V c).after 2 t = iblk0 V c 2 t := rfl
theorem after0_3 : (dat0 V c).after 3 t = iblk0 V c 3 t := rfl
theorem after0_4 : (dat0 V c).after 4 t = iblk0 V c 4 t := rfl
theorem after0_5 : (dat0 V c).after 5 t = iblk0 V c 5 t := rfl
theorem after0_6 : (dat0 V c).after 6 t = iblk0 V c 6 t := rfl
theorem after0_7 : (dat0 V c).after 7 t
    = out0_7 (iblk0 V c 0 t) (iblk0 V c 1 t) (iblk0 V c 2 t) (iblk0 V c 3 t) (iblk0 V c 4 t) (iblk0 V c 5 t) (iblk0 V c 6 t) := rfl

theorem before0_0 (d) : (dat0 V c).before 0 t d = iblk0 V c 0 t :=
  ((dat0 V c).before_in_eq_fetched 0 rfl (fun _ => rfl) (fun _ _ _ => rfl) (fun _ => rfl) t d).trans rfl
theorem before0_1 (d) : (dat0 V c).before 1 t d = iblk0 V c 1 t :=
  ((dat0 V c).before_in_eq_fetched 1 rfl (fun _ => rfl) (fun _ _ _ => rfl) (fun _ => rfl) t d).trans rfl
theorem before0_2 (d) : (dat0 V c).before 2 t d = iblk0 V c 2 t :=
  ((dat0 V c).before_in_eq_fetched 2 rfl (fun _ => rfl) (fun _ _ _ => rfl) (fun _ => rfl) t d).trans rfl
theorem before0_3 (d) : (dat0 V c).before 3 t d = iblk0 V c 3 t :=
  ((dat0 V c).before_in_eq_fetched 3 rfl (fun _ => rfl) (fun _ _ _ => rfl) (fun _ => rfl) t d).trans rfl
theorem before0_4 (d) : (dat0 V c).before 4 t d = iblk0 V c 4 t :=
  ((dat0 V c).before_in_eq_fetched 4 rfl (fun _ => rfl) (fun _ _ _ => rfl) (fun _ => rfl) t d).trans rfl
theorem before0_5 (d) : (dat0 V c).before 5 t d = iblk0 V c 5 t :=
  ((dat0 V c).before_in_eq_fetched 5 rfl (fun _ => rfl) (fun _ _ _ => rfl) (fun _ => rfl) t d).trans rfl
theorem before0_6 (d) : (dat0 V c).before 6 t d = iblk0 V c 6 t :=
  ((dat0 V c).before_in_eq_fetched 6 rfl (fun _ => rfl) (fun _ _ _ => rfl) (fun _ => rfl) t d).trans rfl

end

set_option maxHeartbeats 1000000 in

theorem body_obligation0 (c : Dev nD) : BodyObligation (dat0 (F := F) V c) (defs₀ (F := F)) Variants.none () Set.univ := fun t => by
  rw [bigSep_W0, bigSep_W0]
  show _ ⊢ wp frame (wpE (defs₀ (F := F)) Variants.none c none) Set.univ (bodyAt0 t) _
  unfold bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  iframe
  isplitl [H7]; · iexists _; iexact H7
  iintro ⟨H0, H1, H2, H3, H4, H5, H6, H7⟩
  iframe

end Cert.KernelIdeal.Fr

end
-- ==== Proof.KI.AttnDefs.lean ====
import proofs.«423507_j65481071407721_3_alg».proof.Proof.Gen.KernelIdeal.Launch
import proofs.«423507_j65481071407721_3_alg».proof.Proof.Gen.KernelIdeal.Skeleton
import proofs.«423507_j65481071407721_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Regions

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1

theorem hcond1_1 : ∀ t : Fin cfg1.N, cond1_1 (grid1.coords t) ↔ t.val % 8 = 7 :=
  (by decide +kernel : ∀ t : Fin grid1.N, cond1_1 (grid1.coords t) ↔ t.val % 8 = 7)

theorem idleAt1_4_A : ∀ t : Fin cfg1.N, cond1_0 (grid1.coords t) → ¬cond1_1 (grid1.coords t) → cfg1.idle 4 (grid1.coords t) = true := by decide +kernel

theorem noFlush1_4_A : ∀ t : Fin cfg1.N, cond1_0 (grid1.coords t) → ¬cond1_1 (grid1.coords t) → (cfg1.win 4).flush t = false := by decide +kernel

theorem idleAt1_4_B : ∀ t : Fin cfg1.N, ¬cond1_0 (grid1.coords t) → ¬cond1_1 (grid1.coords t) → cfg1.idle 4 (grid1.coords t) = true := by decide +kernel

theorem noFlush1_4_B : ∀ t : Fin cfg1.N, ¬cond1_0 (grid1.coords t) → ¬cond1_1 (grid1.coords t) → (cfg1.win 4).flush t = false := by decide +kernel

theorem liveAt1_4_C : ∀ t : Fin cfg1.N, ¬cond1_0 (grid1.coords t) → cond1_1 (grid1.coords t) → cfg1.idle 4 (grid1.coords t) = false := by decide +kernel

abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)

abbrev scM1_0 : Memref sig .tc .vmem S1024x1 .f32 := Memref.whole cc1_scratch0
abbrev scM1_1 : Memref sig .tc .vmem S1024x1 .f32 := Memref.whole cc1_scratch1

abbrev VS1_0 : View sig .tc .vmem S1024x1 .f32 := scM1_0.view

def others1 (c : Dev nD) : sProp 𝕄 :=
  iprop((∃ f, ((c : Thread nD τ).loc cc0_stg0_0) ↦{fullShare} f)
    ∗ (∃ f, ((c : Thread nD τ).loc cc0_stg0_1) ↦{fullShare} f)
    ∗ (∃ f, ((c : Thread nD τ).loc cc0_stg1_0) ↦{fullShare} f)
    ∗ (∃ f, ((c : Thread nD τ).loc cc0_stg2_0) ↦{fullShare} f)
    ∗ (∃ f, ((c : Thread nD τ).loc cc0_stg3_0) ↦{fullShare} f)
    ∗ (∃ f, ((c : Thread nD τ).loc cc0_stg4_0) ↦{fullShare} f)
    ∗ (∃ f, ((c : Thread nD τ).loc cc0_stg5_0) ↦{fullShare} f)
    ∗ (∃ f, ((c : Thread nD τ).loc cc0_stg6_0) ↦{fullShare} f)
    ∗ (∃ f, ((c : Thread nD τ).loc cc0_stg7_0) ↦{fullShare} f)
    ∗ (∃ f, ((c : Thread nD τ).loc cc0_stg7_1) ↦{fullShare} f))

theorem PhiA1_eq (c : Dev nD) :
    (Pipeline.ΦA spec1 c : sProp 𝕄)
      = iprop(iprop(others1 c ∗ (∃ d, owns (c : Thread nD τ) scM1_0 fullShare d) ∗ (∃ d, owns (c : Thread nD τ) scM1_1 fullShare d)) ∗ (∃ r, prngReg c r)) := by
  unfold Pipeline.ΦA; rw [scopedRest1_eq]; unfold others1; simp only [scM1_0, scM1_1, owns_whole]
  refine Idealize.SL.BI.Entails.antisymm (show BIBase.Entails (PROP := sProp 𝕄) _ _ from ?_) (show BIBase.Entails (PROP := sProp 𝕄) _ _ from ?_)
  · iintro ⟨⟨R0, R1, R2, R3, R4, R5, R6, R7, R8, R9, HS0, HS1⟩, Hg⟩
    isplitr [Hg]
    · isplitr [HS0 HS1]
      · iframe
      · iframe
    · iexact Hg
  · iintro ⟨⟨⟨R0, R1, R2, R3, R4, R5, R6, R7, R8, R9⟩, HS0, HS1⟩, Hg⟩
    isplitr [Hg]
    · iframe
    · iexact Hg

end Cert.KernelIdeal.Fr

end
-- ==== Proof.KI.AttnRun.lean ====
import proofs.«423507_j65481071407721_3_alg».proof.Proof.KI.AttnDefs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg2 : Memref sig .tc .vmem S1024x1 .f32) (harg2 : arg2.IsWhole) (arg3 : Memref sig .tc .vmem S1x1024 .f32) (harg3 : arg3.IsWhole)
  (arg4 : Memref sig .tc .vmem S1x1024 .f32) (harg4 : arg4.IsWhole) (arg5 : Memref sig .tc .vmem S1024x1 .f32) (harg5 : arg5.IsWhole)
  (arg6 : Memref sig .tc .vmem S1024x1 .f32) (harg6 : arg6.IsWhole) (arg7 : Memref sig .tc .vmem S1024x1 .f32) (harg7 : arg7.IsWhole)
  (arg8 : Memref sig .tc .vmem S1024x1 .f32) (harg8 : arg8.IsWhole)

set_option maxHeartbeats 1000000 in

noncomputable def kernelRun1_A (hc0 : cond1_0 i) (hc1 : ¬cond1_1 i)
    (x0 : Vec F S1024x1 .f32) (x1 : Vec F S1x1024 .f32) (x2 : Vec F S1x1024 .f32) (x3 : Vec F S1024x1 .f32) :
    Σ' (L4 : List (View.Piece (Elt F) S1024x1 .f32)) (LS0 : List (View.Piece (Elt F) S1024x1 .f32)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 1000000 in

noncomputable def kernelRun1_B (hc0 : ¬cond1_0 i) (hc1 : ¬cond1_1 i)
    (x0 : Vec F S1024x1 .f32) (x1 : Vec F S1x1024 .f32) (x2 : Vec F S1x1024 .f32) (x3 : Vec F S1024x1 .f32) (xs0 : Vec F S1024x1 .f32) (xs1 : Vec F S1024x1 .f32) :
    Σ' (L4 : List (View.Piece (Elt F) S1024x1 .f32)) (LS0 : List (View.Piece (Elt F) S1024x1 .f32)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 1000000 in

noncomputable def kernelRun1_C (hc0 : ¬cond1_0 i) (hc1 : cond1_1 i)
    (x0 : Vec F S1024x1 .f32) (x1 : Vec F S1x1024 .f32) (x2 : Vec F S1x1024 .f32) (x3 : Vec F S1024x1 .f32) (xs0 : Vec F S1024x1 .f32) (xs1 : Vec F S1024x1 .f32) :
    Σ' (L4 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.KernelIdeal.Fr

end
-- ==== Proof.KI.Attn.lean ====
import proofs.«423507_j65481071407721_3_alg».proof.Proof.KI.AttnRun

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What a grid point leaves: the output block, the denominator and the numerator accumulators.
abbrev Trip (F : FTy → Type) := Vec F S1024x1 .f32 × Vec F S1024x1 .f32 × Vec F S1024x1 .f32

-- What a list of stores leaves in a buffer of that shape, read back over arbitrary prior contents.
def rd (L : List (View.Piece (Elt F) S1024x1 .f32)) : Vec F S1024x1 .f32 :=
  VS1_0.read (Elt F) (VS1_0.writes (Elt F) VS1_0.junk L)

-- The three buffers as a case's run leaves them.
def can3 {P : List (View.Piece (Elt F) S1024x1 .f32) → List (View.Piece (Elt F) S1024x1 .f32) → List (View.Piece (Elt F) S1024x1 .f32) → Prop}
    (r : Σ' L4 LS0, { LS1 // P L4 LS0 LS1 }) : Trip F :=
  (rd r.1, rd r.2.1, rd r.2.2.1)

section Regions
variable (V : (c : Dev nD) → (b : Ref sig .tc) → Buf (Elt F) ((c : Thread nD τ).loc b))

-- The body's run at point t in each case: A, the first point of a sweep (both accumulators reset);
abbrev runA (c : Dev nD) (t : Fin cfg1.N) (h0 : t.val % 8 = 0) :=
  kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => by have := (hcond1_1 t).mp h; omega) (iblk1 V c 0 t) (iblk1 V c 1 t) (iblk1 V c 2 t) (iblk1 V c 3 t)

-- B, an inner point (it adds to the accumulators p of the point before);
abbrev runB (c : Dev nD) (t : Fin cfg1.N) (h0 : ¬t.val % 8 = 0) (h1 : ¬t.val % 8 = 7) (p : Trip F) :=
  kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (mt (hcond1_0 t).mp h0) (mt (hcond1_1 t).mp h1) (iblk1 V c 0 t) (iblk1 V c 1 t) (iblk1 V c 2 t) (iblk1 V c 3 t) p.2.1 p.2.2

-- C, the last point of a sweep (it adds, then stores the quotient).
abbrev runC (c : Dev nD) (t : Fin cfg1.N) (h0 : ¬t.val % 8 = 0) (h1 : t.val % 8 = 7) (p : Trip F) :=
  kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (mt (hcond1_0 t).mp h0) ((hcond1_1 t).mpr h1) (iblk1 V c 0 t) (iblk1 V c 1 t) (iblk1 V c 2 t) (iblk1 V c 3 t) p.2.1 p.2.2

-- Along the grid: a point whose inner coordinate is 0 starts afresh, any other continues from the point before.
def outsAt1 (c : Dev nD) : (n : ℕ) → n < cfg1.N → Trip F
  | 0, hn => can3 (runA V c ⟨0, hn⟩ rfl)
  | n + 1, hn =>
    if h0 : (n + 1) % 8 = 0 then can3 (runA V c ⟨n + 1, hn⟩ h0)
    else if h1 : (n + 1) % 8 = 7 then can3 (runC V c ⟨n + 1, hn⟩ h0 h1 (outsAt1 c n (Nat.lt_of_succ_lt hn)))
    else can3 (runB V c ⟨n + 1, hn⟩ h0 h1 (outsAt1 c n (Nat.lt_of_succ_lt hn)))

theorem outsAt1_A (c : Dev nD) (t : Fin cfg1.N) (h0 : t.val % 8 = 0) : outsAt1 V c t.val t.isLt = can3 (runA V c t h0) := by
  obtain ⟨_ | n, hn⟩ := t
  · rfl
  · exact dif_pos h0

theorem outsAt1_B (c : Dev nD) (t : Fin cfg1.N) (h0 : ¬t.val % 8 = 0) (h1 : ¬t.val % 8 = 7) :
    outsAt1 V c t.val t.isLt = can3 (runB V c t h0 h1 (outsAt1 V c (t.val - 1) (by omega))) := by
  obtain ⟨_ | n, hn⟩ := t
  · exact absurd rfl h0
  · exact (dif_neg h0).trans (dif_neg h1)

theorem outsAt1_C (c : Dev nD) (t : Fin cfg1.N) (h0 : ¬t.val % 8 = 0) (h1 : t.val % 8 = 7) :
    outsAt1 V c t.val t.isLt = can3 (runC V c t h0 h1 (outsAt1 V c (t.val - 1) (by omega))) := by
  obtain ⟨_ | n, hn⟩ := t
  · exact absurd rfl h0
  · exact (dif_neg h0).trans (dif_pos h1)

-- The invariant after a point that left p: the accumulators hold p's two sums.
def inv1 (c : Dev nD) (p : Trip F) : sProp 𝕄 :=
  iprop(iprop(others1 c ∗ owns (c : Thread nD τ) scM1_0 fullShare p.2.1 ∗ owns (c : Thread nD τ) scM1_1 fullShare p.2.2) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := if h : t.val = 0 then Pipeline.ΦA spec1 c else inv1 c (outsAt1 V c (t.val - 1) (by omega))
  q _ := fullShare
  owed _ := 0

theorem A_eq1 (c : Dev nD) (w : Fin cfg1.W) : (dat1 V c).A w = V c (Pipeline.arrRef spec1 w) := rfl

theorem after1_4 (c : Dev nD) (t : Fin cfg1.N) : (dat1 V c).after 4 t = (outsAt1 V c t.val t.isLt).1 := rfl

-- At every point the invariant gives both accumulators at some contents.
theorem Phi_weak (c : Dev nD) (t : Fin (cfg1.N + 1)) :
    (dat1 V c).Φ t ⊢ iprop(iprop(others1 c ∗ (∃ d, owns (c : Thread nD τ) scM1_0 fullShare d) ∗ (∃ d, owns (c : Thread nD τ) scM1_1 fullShare d)) ∗ (∃ r, prngReg c r)) := by
  by_cases hz : t.val = 0
  · rw [show (dat1 V c).Φ t = _ from dif_pos hz, PhiA1_eq]
  · rw [show (dat1 V c).Φ t = _ from dif_neg hz]
    unfold inv1
    iintro ⟨⟨HR, HS0, HS1⟩, Hg⟩
    isplitr [Hg]
    · isplitl [HR]; · iexact HR
      isplitl [HS0]; · iexists _; iexact HS0
      iexists _; iexact HS1
    · iexact Hg

theorem before1 (c : Dev nD) (t : Fin cfg1.N) : ∀ w : Fin cfg1.W, w ≠ 4 → ∀ d, (dat1 V c).before w t d = (dat1 V c).fetched w t d
  | ⟨0, _⟩, _, d | ⟨1, _⟩, _, d | ⟨2, _⟩, _, d | ⟨3, _⟩, _, d =>
    (dat1 V c).before_in_eq_fetched _ rfl (fun _ => rfl) (fun _ _ _ => rfl) (fun _ => rfl) t d
  | ⟨4, _⟩, h, _ => absurd rfl h

-- One run of the body takes the invariant from a point to the next; the stores into each accumulator tile it.
theorem body_obligation1 (c : Dev nD) : BodyObligation (dat1 (F := F) V c) (defs₀ (F := F)) Variants.none () Set.univ := fun t => by
  rw [bigSep_W1, bigSep_W1]
  dsimp only
  simp only [before1 V c t 0 (by decide), before1 V c t 1 (by decide), before1 V c t 2 (by decide), before1 V c t 3 (by decide)]
  rw [show (dat1 V c).Φ t.succ = inv1 c (outsAt1 V c t.val t.isLt) from rfl]
  have hc0 := hcond1_0 t
  have hc1 := hcond1_1 t
  by_cases h0 : t.val % 8 = 0
  · have h1 : ¬t.val % 8 = 7 := by omega
    rw [show idle1 4 (grid1.coords t) = true from idleAt1_4_A t (hc0.mpr h0) (mt hc1.mp h1), show (win1 4).flush t = false from noFlush1_4_A t (hc0.mpr h0) (mt hc1.mp h1), outsAt1_A V c t h0]
    unfold inv1 can3 rd; dsimp only
    iintro ⟨HP, Ho, ⟨%d0, H0⟩, ⟨%d1, H1⟩, ⟨%d2, H2⟩, ⟨%d3, H3⟩, ⟨%d4, H4⟩⟩
    ihave ⟨⟨HR, HS0, HS1⟩, Hg⟩ := (Phi_weak V c _) $$ HP
    iapply (runA V c t h0).2.2.2 _ Set.univ _
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HR HS0 HS1 Hg]
    · isplitr [Hg]
      · isplitl [HR]; · iexact HR
        isplitl [HS0]
        · iapply (Ring.owns_of_writes_tiledL VS1_0 S1024x1.size) $$ HS0; ipureintro; sl_kernel_rfl
        · iapply (Ring.owns_of_writes_tiledL VS1_0 S1024x1.size) $$ HS1; ipureintro; sl_kernel_rfl
      · iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun e => h0 (by rw [e])
    rw [show (dat1 V c).Φ t.castSucc = inv1 c (outsAt1 V c (t.val - 1) (by omega)) from dif_neg hz]
    unfold inv1
    by_cases h1 : t.val % 8 = 7
    · rw [show idle1 4 (grid1.coords t) = false from liveAt1_4_C t (mt hc0.mp h0) (hc1.mpr h1), after1_4, outsAt1_C V c t h0 h1]; unfold can3 rd; dsimp only
      iintro ⟨⟨⟨HR, HS0, HS1⟩, Hg⟩, Ho, ⟨%d0, H0⟩, ⟨%d1, H1⟩, ⟨%d2, H2⟩, ⟨%d3, H3⟩, ⟨%d4, H4⟩⟩
      iapply (runC V c t h0 h1 _).2.2.2 Set.univ _
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HR HS0 HS1 Hg]
      · isplitr [Hg]
        · isplitl [HR]; · iexact HR
          isplitl [HS0]
          · iapply (Ring.owns_of_writes_tiledL VS1_0 S1024x1.size) $$ HS0; ipureintro; sl_kernel_rfl
          · iapply (Ring.owns_of_writes_tiledL VS1_0 S1024x1.size) $$ HS1; ipureintro; sl_kernel_rfl
        · iexact Hg
      isplitl [Ho]; · iexact Ho
      isplitl [H0]; · iexact H0
      isplitl [H1]; · iexact H1
      isplitl [H2]; · iexact H2
      isplitl [H3]; · iexact H3
      iapply (Ring.owns_of_writes_tiledL VS1_0 S1024x1.size) $$ H4; ipureintro; sl_kernel_rfl
    · rw [show idle1 4 (grid1.coords t) = true from idleAt1_4_B t (mt hc0.mp h0) (mt hc1.mp h1), show (win1 4).flush t = false from noFlush1_4_B t (mt hc0.mp h0) (mt hc1.mp h1), outsAt1_B V c t h0 h1]; unfold can3 rd; dsimp only
      iintro ⟨⟨⟨HR, HS0, HS1⟩, Hg⟩, Ho, ⟨%d0, H0⟩, ⟨%d1, H1⟩, ⟨%d2, H2⟩, ⟨%d3, H3⟩, ⟨%d4, H4⟩⟩
      iapply (runB V c t h0 h1 _).2.2.2 _ Set.univ _
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HR HS0 HS1 Hg]
      · isplitr [Hg]
        · isplitl [HR]; · iexact HR
          isplitl [HS0]
          · iapply (Ring.owns_of_writes_tiledL VS1_0 S1024x1.size) $$ HS0; ipureintro; sl_kernel_rfl
          · iapply (Ring.owns_of_writes_tiledL VS1_0 S1024x1.size) $$ HS1; ipureintro; sl_kernel_rfl
        · iexact Hg
      isplitl [Ho]; · iexact Ho
      isplitl [H0]; · iexact H0
      isplitl [H1]; · iexact H1
      isplitl [H2]; · iexact H2
      isplitl [H3]; · iexact H3
      iexists _; iexact H4

theorem hin1 (c : Dev nD) : Pipeline.ΦA spec1 c ⊢ (dat1 V c).Φ 0 := by
  rw [show (dat1 V c).Φ 0 = Pipeline.ΦA spec1 c from rfl]

theorem hout1 (c : Dev nD) : (dat1 V c).Φ (Fin.last cfg1.N) ⊢ Pipeline.ΦA spec1 c := by
  rw [PhiA1_eq]; exact Phi_weak V c _

end Regions

end Cert.KernelIdeal.Fr

end
-- ==== Proof.KI.Run.lean ====
import proofs.«423507_j65481071407721_3_alg».proof.Proof.Gen.KernelIdeal.Regions
import proofs.«423507_j65481071407721_3_alg».proof.Proof.KI.Enc
import proofs.«423507_j65481071407721_3_alg».proof.Proof.KI.Attn

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

abbrev Vr1 (c : Dev nD) (b : Ref sig .tc) : Buf (Elt F) ((c : Thread nD τ).loc b) := Gen.V1 m c b

abbrev Vr2 (outs : Outs (F := F)) (c : Dev nD) (b : Ref sig .tc) : Buf (Elt F) ((c : Thread nD τ).loc b) := Gen.V2 m outs c b

abbrev Vr4 (outs : Outs (F := F)) (c : Dev nD) (b : Ref sig .tc) : Buf (Elt F) ((c : Thread nD τ).loc b) := Gen.V4 m outs c b

abbrev Vr5 (outs : Outs (F := F)) (c : Dev nD) (b : Ref sig .tc) : Buf (Elt F) ((c : Thread nD τ).loc b) := Gen.V5 m outs c b

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c

section Records

variable (outs : Outs (F := F))

def pdats : (p : Fin 2) → (c : Dev nD) → Dat τ (Elt F) Unit ℕ (UR sig nD τ) ℕ (cfgs p) c
  | ⟨0, _⟩ => fun c => dat0 (Vr1 m) c
  | ⟨1, _⟩ => fun c => dat1 (Vr4 m outs) c

variable (h2 : ∀ c, outs 2 main_v3 c = (dat0 (Vr1 m) c).arrAt 7 cfg0.N)
variable (h5 : ∀ c, outs 5 main_v23 c = (dat1 (Vr4 m outs) c).arrAt 4 cfg1.N)

include h2 in

theorem hF0 (c : Dev nD) (w : Fin cfg0.W) : (dat0 (Vr1 m) c).arrAt w cfg0.N = Vr2 m outs c (Pipeline.arrRef spec0 w) := by
  by_cases hw : w = 7
  · subst hw; exact (h2 c).symm.trans (by simp only [Gen.V2, Function.update_self])
  · exact ((dat0 (Vr1 m) c).arrAt_in w ((by decide : ∀ w : Fin cfg0.W, w ≠ 7 → (cfg0.win w).isOut = false) w hw) _).trans
      ((A_eq0 (Vr1 m) c w).trans (Gen.V2_of m outs c _
        ((by decide : ∀ w : Fin cfg0.W, w ≠ 7 → Pipeline.arrRef spec0 w ∉ [main_v3]) w hw)).symm)

theorem hrest0 (c : Dev nD) : ∀ b, b ∉ Finset.univ.image (Pipeline.arrRef spec0) → Vr2 m outs c b = Vr1 m c b :=
  fun b hb => Gen.V2_of m outs c b fun hm => hb (Finset.mem_image.mpr ⟨7, Finset.mem_univ _, (List.mem_singleton.mp hm).symm⟩)

include h5 in

theorem hF1 (c : Dev nD) (w : Fin cfg1.W) : (dat1 (Vr4 m outs) c).arrAt w cfg1.N = Vr5 m outs c (Pipeline.arrRef spec1 w) := by
  by_cases hw : w = 4
  · subst hw; exact (h5 c).symm.trans (by simp only [Gen.V5, Function.update_self])
  · exact ((dat1 (Vr4 m outs) c).arrAt_in w ((by decide : ∀ w : Fin cfg1.W, w ≠ 4 → (cfg1.win w).isOut = false) w hw) _).trans
      ((A_eq1 (Vr4 m outs) c w).trans (Gen.V5_of m outs c _
        ((by decide : ∀ w : Fin cfg1.W, w ≠ 4 → Pipeline.arrRef spec1 w ∉ [main_v23]) w hw)).symm)

theorem hrest1 (c : Dev nD) : ∀ b, b ∉ Finset.univ.image (Pipeline.arrRef spec1) → Vr5 m outs c b = Vr4 m outs c b :=
  fun b hb => Gen.V5_of m outs c b fun hm => hb (Finset.mem_image.mpr ⟨4, Finset.mem_univ _, (List.mem_singleton.mp hm).symm⟩)

set_option backward.isDefEq.respectTransparency.types false in

def reg0 : Pipeline.RegionSeg (pcfgs (F := F)) Gen.adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m outs c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) Gen.adm (pdats m outs) launch0.win launch0.arr_whole c
      ((pdats m outs 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m outs) ((pdats m outs 0 c).share_full fun _ => rfl)
      (Vr1 m c) (Vr2 m outs c) ((pdats m outs 0 c).arrAt · cfg0.N) (hF0 m outs h2 c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) Gen.adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr4 m outs) c).loose
  hwaits := Pipeline.hwaits_of_owed_zero _ _ _ _ L lv 1 fun _ _ => rfl
  pre c := iprop(StableHlo.held (c : Thread nD τ) (Pipeline.ucRefs τ sig) (Gen.V4 m outs c) ∗ R c)
  post c := iprop(StableHlo.held (c : Thread nD τ) (Pipeline.ucRefs τ sig) (Gen.V5 m outs c) ∗ R c)
  X c := iprop(∃ r, prngReg c r)
  Y c := iprop(∃ r, prngReg c r)
  Z c := Pipeline.unscopedRest (Ix := Unit) (Name := ℕ) (U := UR sig nD τ) (Lvl := ℕ) spec1 c (Vr4 m outs c)
  hentry c := by
    rw [Pipeline.ownSems0_none]
    have hsplit := Pipeline.arrays_of_unscopedBufs (p := 1) (pcfgs (F := F)) Gen.adm (pdats m outs) launch1.win launch1.arr_whole c
      ((pdats m outs 1 c).share_full fun _ => rfl) (Vr4 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Vr4 m outs) c)
    unfold Pipeline.ΦA
    iintro ⟨Hp, -, Hr⟩
    isplitl [Hr]; · iexact Hr
    iexact Hp
  hout c := by
    rw [Pipeline.ownSems0_none]
    refine (hout1 (Vr4 m outs) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m outs) ((pdats m outs 1 c).share_full fun _ => rfl)
      (Vr4 m outs c) (Vr5 m outs c) ((pdats m outs 1 c).arrAt · cfg1.N) (hF1 m outs h5 c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include h2 h5 in
set_option backward.isDefEq.respectTransparency.types false in

theorem run_all :
    θ_run defs (onTc (τ := τ) (main (F := F))) ⟨m, fun _ => 0, ρ⟩ (fun r => ∀ c : Dev nD,
      ∀ b ∈ Pipeline.ucRefs τ sig, r.2.mem ((c : Thread nD τ).1, b) = Gen.V12 m outs c b) := by
  refine Pipeline.θ_run_regions_kit_dev (pcfgs (F := F)) Gen.adm (pdats m outs) () cellOf_inj emb₁ defs₀ 𝒱₀ L lv m ρ main
    (Gen.segs m outs 𝒱₀ L lv E () (pdats m outs) (reg0 m outs h2) (reg1 m outs h5))
    (fun c Q => by
      rewrite [main_chain c, Seg.run_eq_chain,
        show (Gen.segs m outs 𝒱₀ L lv E () (pdats m outs) (reg0 m outs h2) (reg1 m outs h5) c).map Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6 ] from rfl]
      exact .rfl)
    (fun c => by simp only [Gen.segs, Seg.pipes_host, Seg.pipes_region, Seg.pipes_nil]; decide) (O₀ := 0) (hL := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V12 m outs c))
    (hch := fun c => ⟨.rfl, .rfl, .rfl, .rfl, .rfl, .rfl, .rfl, .rfl, .rfl, .rfl, .rfl, .rfl, sep_mono .rfl (by
      iintro ⟨-, HO⟩; iexact HO)⟩)
    (hinit := ?_)
    (QY := fun c s => ∀ b ∈ Pipeline.ucRefs τ sig, s.mem ((c : Thread nD τ).1, b) = Gen.V12 m outs c b)
    (hfin := fun c s' => ?_) (hQ := fun _ h => h)
  ·
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    ihave Hr := (pointsTo_read_all (Pipeline.ucRefs τ sig) (fun b => ((c : Thread nD τ).1, b)) (Gen.V12 m outs c) s') $$ [Hh HSI]
    · isplitl [Hh] <;> iassumption
    icases Hr with ⟨%h, HSI⟩
    imodintro
    isplitr
    · ipureintro; exact h
    · iexact HSI

end Records

def outsA : Outs (F := F) := fun _ r c =>
  Pipeline.withArrays spec0 c (Gen.V1 m c) (fun w => (dat0 (Vr1 m) c).arrAt w cfg0.N) (Proc.devRef .tc r)

def outs : Outs (F := F) := fun j r c =>
  if j = 5 then
    Pipeline.withArrays spec1 c (Gen.V4 m (outsA m) c) (fun w => (dat1 (Vr4 m (outsA m)) c).arrAt w cfg1.N) (Proc.devRef .tc r)
  else outsA m j r c

theorem outs_two (c : Dev nD) : outs m 2 main_v3 c = outsA m 2 main_v3 c := by
  unfold outs; exact if_neg (by decide)

theorem outs_h2 (c : Dev nD) : outs m 2 main_v3 c = (dat0 (Vr1 m) c).arrAt 7 cfg0.N := by
  rw [outs_two]; unfold outsA
  exact Pipeline.withArrays_arr spec0 launch0.win.arr_inj c _ _ 7

theorem Vr4_outs : Vr4 m (outs m) = Vr4 m (outsA m) :=
  funext fun c => funext fun b => by
    show StableHlo.after hostOps1_1 (StableHlo.after hostOps1 (Function.update (Gen.V1 m c) _ (outs m 2 main_v3 c))) b
      = StableHlo.after hostOps1_1 (StableHlo.after hostOps1 (Function.update (Gen.V1 m c) _ (outsA m 2 main_v3 c))) b
    rw [outs_two]

theorem outs_h5 (c : Dev nD) : outs m 5 main_v23 c = (dat1 (Vr4 m (outs m)) c).arrAt 4 cfg1.N := by
  rw [Vr4_outs]; unfold outs; rw [if_pos rfl]
  exact Pipeline.withArrays_arr spec1 launch1.win.arr_inj c _ _ 4

-- the program runs to the end, and every array it holds ends at its final contents
theorem run : θ_run defs (onTc (τ := τ) (main (F := F))) ⟨m, fun _ => 0, ρ⟩ (fun r => ∀ c : Dev nD,
      ∀ b ∈ Pipeline.ucRefs τ sig, r.2.mem ((c : Thread nD τ).1, b) = Gen.V12 m (outs m) c b) :=
  run_all m ρ (outs m) (outs_h2 m) (outs_h5 m)

-- one array's final contents, read off such an end state
theorem final_at {mem : (ℓ : Loc nD τ sig) → Buf (Elt F) ℓ} {c : Dev nD}
    (h : ∀ b ∈ Pipeline.ucRefs τ sig, mem ((c : Thread nD τ).1, b) = Gen.V12 m (outs m) c b) (b : Ref sig .tc)
    (hb : ¬(Proc.devRef .tc b : DevRef τ sig).isScoped) {x} (e : Gen.V12 m (outs m) c b = x) :
    mem ((c.tc : Thread nD τ).loc b) = x :=
  (h _ (mem_uc b hb)).trans e

end Cert.KernelIdeal.Fr

end
-- ==== Proof.RefGen.lean ====
import proofs.«423507_j65481071407721_3_alg».proof.Proof.Gen.ReferenceIdeal.Run
import proofs.«423507_j65481071407721_3_alg».proof.Proof.Gen.ReferenceIdeal.Read
-- ==== Proof.KI.EncPayload.lean ====
import proofs.«423507_j65481071407721_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StackMember

noncomputable section

namespace Cert.KernelIdeal.Val

open Cert.KernelIdeal Cert.KernelIdeal.Gen
open Idealize.ShloMosaic Idealize.ShloMosaic.ValueIdx

-- a product into a zero accumulator is the host's product, and the plain m×k by k×n product reads as the sum over the contracted coordinate
theorem first_product_apply {φ₁ φ₂ : FTy} (l : FVec Ideal S512x4096 φ₁) (r : FVec Ideal S4096x128 φ₂) (p : Fin 512) (a : Fin 128) :
    matmul dot_S512x4096_S4096x128_S512x128_1_0_0_1_n_n none l r (constant S512x128 .f32 0x00000000#32) (ix2 p a)
      = ∑ k : Fin 4096, l (ix2 p k) * r (ix2 k a) :=
  (congrFun (matmul_zero_eq_dotGeneral _ none l r) _).trans (StackMember.dotGeneral_plain_apply none l r p a)

theorem second_product_apply {φ₁ φ₂ : FTy} (l : FVec Ideal S512x128 φ₁) (r : FVec Ideal S128x64 φ₂) (p : Fin 512) (b : Fin 64) :
    matmul dot_S512x128_S128x64_S512x64_1_0_0_1_n_n none l r (constant S512x64 .f32 0x00000000#32) (ix2 p b)
      = ∑ a : Fin 128, l (ix2 p a) * r (ix2 a b) :=
  (congrFun (matmul_zero_eq_dotGeneral _ none l r) _).trans (StackMember.dotGeneral_plain_apply none l r p b)

theorem third_product_apply {φ₁ φ₂ : FTy} (l : FVec Ideal S512x64 φ₁) (r : FVec Ideal S64x1 φ₂) (p : Fin 512) (u : Fin 1) :
    matmul dot_S512x64_S64x1_S512x1_1_0_0_1_n_n none l r (constant S512x1 .f32 0x00000000#32) (ix2 p u)
      = ∑ b : Fin 64, l (ix2 p b) * r (ix2 b u) :=
  (congrFun (matmul_zero_eq_dotGeneral _ none l r) _).trans (StackMember.dotGeneral_plain_apply none l r p u)

theorem stored_apply (x : Vec Ideal S512x4096 .f32) (w1 : Vec Ideal S4096x128 .f32) (c1 : Vec Ideal S1x128 .f32)
    (w2 : Vec Ideal S128x64 .f32) (c2 : Vec Ideal S1x64 .f32) (w3 : Vec Ideal S64x1 .f32) (c3 : Vec Ideal S1x1 .f32)
    (p : Fin 512) (u : Fin 1) :
    k0_pay1 (F := Ideal) x w1 c1 w2 c2 w3 c3 (ix2 p u)
      = (∑ b : Fin 64,
          max ((∑ a : Fin 128,
              max ((∑ k : Fin 4096, x (ix2 p k) * w1 (ix2 k a)) + c1 (ix2 (0 : Fin 1) a)) (Ideal.ofBits .f32 0x00000000#32)
                * w2 (ix2 a b)) + c2 (ix2 (0 : Fin 1) b)) (Ideal.ofBits .f32 0x00000000#32)
            * w3 (ix2 b u)) + c3 (ix2 (0 : Fin 1) u) := by
  unfold k0_pay1
  simp only [shapeCast_self]
  rw [addf_apply, third_product_apply, broadcastTo_1b_ab_apply]
  refine congrArg (· + c3 (ix2 (0 : Fin 1) u)) (Finset.sum_congr rfl fun b _ => ?_)
  rw [truncf_apply, truncf_apply, maximumf_apply, addf_apply, second_product_apply, broadcastTo_1b_ab_apply,
    broadcast_apply]
  refine congrArg (fun s => max (s + c2 (ix2 (0 : Fin 1) b)) _ * w3 (ix2 b u)) (Finset.sum_congr rfl fun a _ => ?_)
  rw [truncf_apply, truncf_apply, maximumf_apply, addf_apply, first_product_apply, broadcastTo_1b_ab_apply,
    broadcast_apply]
  rfl

end Cert.KernelIdeal.Val

end
-- ==== Proof.Spec.lean ====
import Idealize.ShloMosaic.PureOps.Ideal
import Mathlib.Analysis.SpecialFunctions.Exp
import Mathlib.Order.Interval.Finset.Fin

noncomputable section

namespace Cert.Spec

open Idealize.ShloMosaic

abbrev z32 : EReal := Ideal.ofBits .f32 0x00000000#32

section
variable (x : Fin 8192 → Fin 4096 → EReal) (W1 : Fin 4096 → Fin 128 → EReal) (b1 : Fin 128 → EReal)
  (W2 : Fin 128 → Fin 64 → EReal) (b2 : Fin 64 → EReal) (W3 : Fin 64 → EReal) (b3 : EReal) (i : Fin 8192)

def hid1 (a : Fin 128) : EReal :=
  max ((∑ k : Fin 4096, x i k * W1 k a) + b1 a) z32

def hid2 (b : Fin 64) : EReal :=
  max ((∑ a : Fin 128, hid1 x W1 b1 i a * W2 a b) + b2 b) z32

def lat : EReal :=
  (∑ b : Fin 64, hid2 x W1 b1 W2 b2 i b * W3 b) + b3

end

variable (l : Fin 8192 → ℝ) (r e : ℝ) (i : Fin 8192)

def score (j : Fin 8192) : ℝ := (l i * r) * (l j * e)

def rowMax : ℝ :=
  Finset.univ.sup' Finset.univ_nonempty (score l r e i)

def weight (j : Fin 8192) : ℝ := Real.exp (score l r e i j - rowMax l r e i)

def attn : ℝ :=
  (∑ j : Fin 8192, weight l r e i j * l j) / (∑ j : Fin 8192, weight l r e i j)

end Cert.Spec

end
-- ==== Proof.KI.EncValue.lean ====
import proofs.«423507_j65481071407721_3_alg».proof.Proof.KI.Enc
import proofs.«423507_j65481071407721_3_alg».proof.Proof.KI.EncPayload
import proofs.«423507_j65481071407721_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

def latents (c : Dev nD) : S8192x1.Idx → EReal := fun idx =>
  Cert.Spec.lat (fun i k => V c main_arg0 (ix2 i k)) (fun k a => V c main_arg1 (ix2 k a)) (fun a => V c main_v0 (ix2 0 a))
    (fun a b => V c main_arg3 (ix2 a b)) (fun b => V c main_v1 (ix2 0 b)) (fun b => V c main_arg5 (ix2 b 0))
    (V c main_v2 (ix2 0 0)) (idx 0)

theorem index0_zero : ∀ (t : Fin cfg0.N) (a : Fin 2), win0_1.index t a = 0 ∧ win0_2.index t a = 0 ∧ win0_3.index t a = 0
    ∧ win0_4.index t a = 0 ∧ win0_5.index t a = 0 ∧ win0_6.index t a = 0 :=
  (by decide +kernel : ∀ t : Fin grid0.N, _)

theorem index0_row : ∀ t : Fin cfg0.N, win0_0.index t (0 : Fin 2) = t.val ∧ win0_0.index t (1 : Fin 2) = 0
    ∧ win0_7.index t (0 : Fin 2) = t.val ∧ win0_7.index t (1 : Fin 2) = 0 :=
  (by decide +kernel : ∀ t : Fin grid0.N, _)

theorem blocks0_whole (c : Dev nD) (t : Fin cfg0.N) :
    (iblk0 V c 1 t : Vec Ideal S4096x128 .f32) = (V c main_arg1 : S4096x128.Idx → EReal)
    ∧ (iblk0 V c 2 t : Vec Ideal S1x128 .f32) = (V c main_v0 : S1x128.Idx → EReal)
    ∧ (iblk0 V c 3 t : Vec Ideal S128x64 .f32) = (V c main_arg3 : S128x64.Idx → EReal)
    ∧ (iblk0 V c 4 t : Vec Ideal S1x64 .f32) = (V c main_v1 : S1x64.Idx → EReal)
    ∧ (iblk0 V c 5 t : Vec Ideal S64x1 .f32) = (V c main_arg5 : S64x1.Idx → EReal)
    ∧ (iblk0 V c 6 t : Vec Ideal S1x1 .f32) = (V c main_v2 : S1x1.Idx → EReal) := by
  refine ⟨?_, ?_, ?_, ?_, ?_, ?_⟩ <;> funext y <;> unfold iblk0 <;> rw [View.read_apply] <;>
    refine congrArg (V c _) (funext fun a => Fin.ext ?_)
  exacts [Pipeline.Window.rect_emb_val_of_index_zero (cfg0.win 1) t a (index0_zero t a).1 y,
    Pipeline.Window.rect_emb_val_of_index_zero (cfg0.win 2) t a (index0_zero t a).2.1 y,
    Pipeline.Window.rect_emb_val_of_index_zero (cfg0.win 3) t a (index0_zero t a).2.2.1 y,
    Pipeline.Window.rect_emb_val_of_index_zero (cfg0.win 4) t a (index0_zero t a).2.2.2.1 y,
    Pipeline.Window.rect_emb_val_of_index_zero (cfg0.win 5) t a (index0_zero t a).2.2.2.2.1 y,
    Pipeline.Window.rect_emb_val_of_index_zero (cfg0.win 6) t a (index0_zero t a).2.2.2.2.2 y]

theorem written_back (c : Dev nD) (t : Fin cfg0.N) :
    (dat0 V c).flushed 7 t = ((cfg0.win 7).blk t).view.read (Elt Ideal) (latents V c) := by
  show (cfg0.win 7).cut (grid0.coords t) ((dat0 V c).after 7 t) = _
  rw [after0_7]
  unfold out0_7
  rw [View.canon_unit_zero zero_offsets]
  simp only [View.ld_unit_zero (S := S512x4096) zero_offsets, View.ld_unit_zero (S := S4096x128) zero_offsets,
    View.ld_unit_zero (S := S1x128) zero_offsets, View.ld_unit_zero (S := S128x64) zero_offsets,
    View.ld_unit_zero (S := S1x64) zero_offsets, View.ld_unit_zero (S := S64x1) zero_offsets,
    View.ld_unit_zero (S := S1x1) zero_offsets]
  obtain ⟨r0, r1, e0, -⟩ := index0_row t
  have ht : t.val < 16 := lt_of_lt_of_eq t.isLt N_0
  funext j
  obtain ⟨p, u, rfl⟩ : ∃ (p : Fin 512) (u : Fin 1), j = ix2 p u := ⟨j 0, j 1, eq_ix2 j⟩
  obtain rfl : u = 0 := Subsingleton.elim _ _
  have hxj : (cfg0.win 7).xinj (grid0.coords t) (ix2 p (0 : Fin 1)) = ix2 p (0 : Fin 1) := funext fun a => Fin.ext (by
    match a with
    | ⟨0, _⟩ => rfl
    | ⟨1, _⟩ => rfl)
  have hrow : ((cfg0.win 7).blk t).view.emb (ix2 p (0 : Fin 1)) (0 : Fin 2) = (⟨512 * t.val + p.val, by omega⟩ : Fin 8192) :=
    Fin.ext (by show win0_7.index t (0 : Fin 2) * 512 + 1 * p.val = 512 * t.val + p.val; rw [e0]; omega)
  rw [View.read_apply]
  show k0_pay1 (F := Ideal) (iblk0 V c 0 t) (iblk0 V c 1 t) (iblk0 V c 2 t) (iblk0 V c 3 t) (iblk0 V c 4 t) (iblk0 V c 5 t) (iblk0 V c 6 t)
      ((cfg0.win 7).xinj (grid0.coords t) (ix2 p (0 : Fin 1))) = latents V c (((cfg0.win 7).blk t).view.emb (ix2 p (0 : Fin 1)))
  rw [hxj]
  unfold latents
  rw [hrow]
  obtain ⟨h1, h2, h3, h4, h5, h6⟩ := blocks0_whole V c t
  have h0 (k : Fin 4096) : (iblk0 V c 0 t : Vec Ideal S512x4096 .f32) (ix2 p k)
      = V c main_arg0 (ix2 ⟨512 * t.val + p.val, by omega⟩ k) := by
    unfold iblk0
    rw [View.read_apply]
    refine congrArg (V c main_arg0) (funext fun a => Fin.ext ?_)
    match a with
    | ⟨0, _⟩ => show win0_0.index t (0 : Fin 2) * 512 + 1 * p.val = 512 * t.val + p.val; rw [r0]; omega
    | ⟨1, _⟩ => show win0_0.index t (1 : Fin 2) * 4096 + 1 * k.val = k.val; rw [r1]; omega
  rw [h1, h2, h3, h4, h5, h6, stored_apply]
  simp only [h0]
  rfl

theorem row_covered (i : S8192x1.Idx) :
    ∃ t : Fin cfg0.N, (cfg0.win 7).flush t = true ∧ i ∈ ((cfg0.win 7).blk t).view.set := by
  have h0 : (i 0).val < 8192 := (i 0).isLt
  have h1 : (i 1).val < 1 := (i 1).isLt
  have hN : cfg0.N = 16 := N_0
  have ht : (i 0).val / 512 < cfg0.N := by rw [hN]; omega
  refine ⟨⟨_, ht⟩, flush0_7 _, ?_⟩
  obtain ⟨-, -, e0, e1⟩ := index0_row ⟨_, ht⟩
  show i ∈ ((View.whole main_v3).slice (win0_7.rect ⟨_, ht⟩)).set
  rw [View.set_slice_whole, Rect.mem_set_unit]
  intro a
  match a with
  | ⟨0, _⟩ =>
    show win0_7.index _ (0 : Fin 2) * 512 ≤ (i 0).val ∧ (i 0).val < win0_7.index _ (0 : Fin 2) * 512 + 512
    rw [e0]; show (i 0).val / 512 * 512 ≤ (i 0).val ∧ (i 0).val < (i 0).val / 512 * 512 + 512; omega
  | ⟨1, _⟩ =>
    show win0_7.index _ (1 : Fin 2) * 1 ≤ (i 1).val ∧ (i 1).val < win0_7.index _ (1 : Fin 2) * 1 + 1
    rw [e1]; omega

theorem enc_array (c : Dev nD) : (dat0 V c).arrAt 7 cfg0.N = latents V c :=
  (dat0 V c).arrAt_eq_of_cover 7 (latents V c) (fun t _ => written_back V c t) (row_covered)

end Cert.KernelIdeal.Val

end
-- ==== Proof.LibColumn.lean ====
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

section Layout
variable {α : Type}

theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

section Reductions
variable {φ : FTy}

theorem sumAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ v acc h hφ hacc (ix1 r) = ∑ k : Fin b, v (ix2 r k) :=
  (Ideal.multiReduction_add_single v acc h hφ hacc (ix1 r)).trans
    (Finset.sum_congr rfl fun k _ => congrArg v (lift_axis1 h r k))

end Reductions

end Cert.LibColumn

end
-- ==== Proof.KI.AttnPayload.lean ====
import proofs.«423507_j65481071407721_3_alg».proof.Proof.Gen.KernelIdeal.Skeleton
import proofs.«423507_j65481071407721_3_alg».proof.Proof.LibColumn
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val

open Cert.KernelIdeal Cert.KernelIdeal.Gen Cert.LibColumn
open Idealize.ShloMosaic Idealize.ShloMosaic.ValueIdx

theorem exp_apply {s : Shape} {φ : FTy} (a : FVec Ideal s φ) (i : s.Idx) : exp a i = Ideal.exp (a i) := rfl

theorem weights_apply (q : Vec Ideal S1024x1 .f32) (k : Vec Ideal S1x1024 .f32) (mm : Vec Ideal S1024x1 .f32)
    (p u : Fin 1024) :
    k1_pay4 (F := Ideal) q k mm (ix2 p u)
      = Ideal.exp (q (ix2 p (0 : Fin 1)) * k (ix2 (0 : Fin 1) u) - mm (ix2 p (0 : Fin 1))) := by
  unfold k1_pay4
  simp only [shapeCast_self]
  rw [exp_apply, subf_apply, mulf_apply, broadcastTo_a1_ab_apply, broadcastTo_1b_ab_apply, broadcastTo_a1_ab_apply]

theorem denom_apply (q : Vec Ideal S1024x1 .f32) (k : Vec Ideal S1x1024 .f32) (mm : Vec Ideal S1024x1 .f32)
    (l : Vec Ideal S1024x1 .f32) (p : Fin 1024) :
    k1_pay5 (F := Ideal) q k mm l (ix2 p (0 : Fin 1))
      = l (ix2 p (0 : Fin 1))
        + ∑ u : Fin 1024, Ideal.exp (q (ix2 p (0 : Fin 1)) * k (ix2 (0 : Fin 1) u) - mm (ix2 p (0 : Fin 1))) := by
  unfold k1_pay5
  simp only [shapeCast_self]
  rw [addf_apply, shapeCast_a_a1_apply]
  refine congrArg (l (ix2 p (0 : Fin 1)) + ·) ?_
  exact (sumAxis1_apply _ _ _ _ _ p).trans (Finset.sum_congr rfl fun u _ => weights_apply q k mm p u)

theorem numer_apply (q : Vec Ideal S1024x1 .f32) (k : Vec Ideal S1x1024 .f32) (v : Vec Ideal S1x1024 .f32)
    (mm : Vec Ideal S1024x1 .f32) (a : Vec Ideal S1024x1 .f32) (p : Fin 1024) :
    k1_pay6 (F := Ideal) q k v mm a (ix2 p (0 : Fin 1))
      = a (ix2 p (0 : Fin 1))
        + ∑ u : Fin 1024, Ideal.exp (q (ix2 p (0 : Fin 1)) * k (ix2 (0 : Fin 1) u) - mm (ix2 p (0 : Fin 1)))
            * v (ix2 (0 : Fin 1) u) := by
  unfold k1_pay6
  simp only [shapeCast_self]
  rw [addf_apply, shapeCast_a_a1_apply]
  refine congrArg (a (ix2 p (0 : Fin 1)) + ·) ?_
  refine (sumAxis1_apply _ _ _ _ _ p).trans (Finset.sum_congr rfl fun u _ => ?_)
  rw [mulf_apply, weights_apply, broadcastTo_1b_ab_apply]

theorem denom_reset_apply (j : S1024x1.Idx) : k1_pay2 (F := Ideal) j = 0 := by
  unfold k1_pay2
  simp only [shapeCast_self]
  exact Ideal.ofBits_zero_f32

theorem numer_reset_apply (j : S1024x1.Idx) : k1_pay3 (F := Ideal) j = 0 := by
  unfold k1_pay3
  simp only [shapeCast_self]
  exact Ideal.ofBits_zero_f32

theorem quotient_apply (a l : Vec Ideal S1024x1 .f32) (j : S1024x1.Idx) :
    k1_pay1 (F := Ideal) a l j = Ideal.div (a j) (l j) := rfl

end Cert.KernelIdeal.Val

end
-- ==== Proof.SoftmaxLaw.lean ====
import proofs.«423507_j65481071407721_3_alg».proof.Proof.Spec
import Idealize.ShloMosaic.PureOps.Ideal.Laws
import Mathlib.Algebra.BigOperators.Fin
import Mathlib.Algebra.Order.BigOperators.Group.Finset
import Mathlib.Data.Finset.Fold
import Mathlib.Data.Finset.Lattice.Fold
import Mathlib.Logic.Equiv.Fin.Basic

noncomputable section

namespace Cert.Spec

open Idealize.ShloMosaic

-- A nonnegative factor comes out of a largest value; a nonpositive one turns the smallest value into the largest.
theorem sup'_const_mul {ι : Type*} (s : Finset ι) (hs : s.Nonempty) (c : ℝ) (f : ι → ℝ) :
    s.sup' hs (fun j => c * f j) = if 0 ≤ c then c * s.sup' hs f else c * s.inf' hs f := by
  by_cases hc : 0 ≤ c
  · obtain ⟨j, hj, e⟩ := Finset.exists_mem_eq_sup' hs f
    rw [if_pos hc, e]
    exact le_antisymm (Finset.sup'_le hs _ fun j hj => mul_le_mul_of_nonneg_left (e ▸ Finset.le_sup' f hj) hc)
      (Finset.le_sup' (fun j => c * f j) hj)
  · obtain ⟨j, hj, e⟩ := Finset.exists_mem_eq_inf' hs f
    rw [if_neg hc, e]
    exact le_antisymm (Finset.sup'_le hs _ fun j hj =>
        mul_le_mul_of_nonpos_left (e ▸ Finset.inf'_le f hj) (le_of_lt (not_le.1 hc)))
      (Finset.le_sup' (fun j => c * f j) hj)

theorem rowMax_eq (l : Fin 8192 → ℝ) (r e : ℝ) (i : Fin 8192) :
    rowMax l r e i = if 0 ≤ l i * r
      then (l i * r) * (Finset.univ.sup' Finset.univ_nonempty fun j => l j * e)
      else (l i * r) * (Finset.univ.inf' Finset.univ_nonempty fun j => l j * e) :=
  sup'_const_mul _ _ _ _

theorem sum_weight_ne (l : Fin 8192 → ℝ) (r e : ℝ) (i : Fin 8192) : (∑ j, weight l r e i j) ≠ 0 :=
  (Finset.sum_pos (fun j _ => show 0 < weight l r e i j from Real.exp_pos _) Finset.univ_nonempty).ne'

theorem coe_sum {ι : Type*} [Fintype ι] (f : ι → ℝ) : ((∑ j, f j : ℝ) : EReal) = ∑ j, (f j : EReal) := by
  classical
  induction (Finset.univ : Finset ι) using Finset.induction_on with
  | empty => simp
  | insert a s ha ih => rw [Finset.sum_insert ha, Finset.sum_insert ha, EReal.coe_add, ih]

theorem sum_tiles {M : Type*} [AddCommMonoid M] (f : Fin 8192 → M) :
    ∑ j, f j = ∑ t : Fin 8, ∑ u : Fin 1024, f ⟨t.val * 1024 + u.val, by omega⟩ := by
  rw [← Fintype.sum_prod_type (f := fun p : Fin 8 × Fin 1024 => f ⟨p.1.val * 1024 + p.2.val, by omega⟩)]
  refine (Fintype.sum_equiv (finProdFinEquiv (m := 8) (n := 1024)) _ (fun j : Fin (8 * 1024) => f j) fun p => ?_).symm
  refine congrArg f (Fin.ext ?_)
  show p.1.val * 1024 + p.2.val = p.2.val + 1024 * p.1.val
  omega

theorem exp_coe (x : ℝ) : Ideal.exp (x : EReal) = ((Real.exp x : ℝ) : EReal) := rfl

theorem div_coe' (x : ℝ) {y : ℝ} (hy : y ≠ 0) : Ideal.div (x : EReal) (y : EReal) = ((x / y : ℝ) : EReal) := by
  rw [Ideal.div_coe hy, ← EReal.coe_mul, mul_one_div]

theorem neg_inf_word : Ideal.ofBits .f32 0xFF800000#32 = ⊥ := by
  simp [Ideal.ofBits, Ideal.ieee]

theorem pos_inf_word : Ideal.ofBits .f32 0x7F800000#32 = ⊤ := by
  simp [Ideal.ofBits, Ideal.ieee]

theorem fold_max_coe {ι : Type*} (s : Finset ι) (hs : s.Nonempty) (k : ι → ℝ) :
    s.fold max (⊥ : EReal) (fun j => (k j : EReal)) = ((s.sup' hs k : ℝ) : EReal) := by
  induction hs using Finset.Nonempty.cons_induction with
  | singleton a => rw [Finset.fold_singleton, Finset.sup'_singleton, max_bot_right]
  | cons a s ha hs ih =>
    rw [Finset.fold_cons, ih, Finset.sup'_cons hs]
    exact (EReal.coe_strictMono.monotone.map_max).symm

theorem fold_min_coe {ι : Type*} (s : Finset ι) (hs : s.Nonempty) (k : ι → ℝ) :
    s.fold min (⊤ : EReal) (fun j => (k j : EReal)) = ((s.inf' hs k : ℝ) : EReal) := by
  induction hs using Finset.Nonempty.cons_induction with
  | singleton a => rw [Finset.fold_singleton, Finset.inf'_singleton, min_top_right]
  | cons a s ha hs ih =>
    rw [Finset.fold_cons, ih, Finset.inf'_cons hs]
    exact (EReal.coe_strictMono.monotone.map_min).symm

-- A reduce over all the axes folds over every source index, in any order: here through a bijection from a plain index type.
theorem hostReduce_all {s t u : Shape} {axes : List (Fin s.rank)} (f : Ideal .f32 → Ideal .f32 → Ideal .f32)
    [Std.Commutative f] [Std.Associative f] (x : s.Idx → Ideal .f32) (init : u.Idx → Ideal .f32)
    (h : s.ReducesTo axes t) (hu : 0 < u.numel) (j : t.Idx) (hall : ∀ i, h.drop i = j) {b : Ideal .f32}
    (hb : init (Shape.Idx.first hu) = b) {ι : Type*} [Fintype ι] (σ : ι → s.Idx) (hσ : Function.Bijective σ)
    {y : ι → Ideal .f32} (hx : ∀ c, x (σ c) = y c) :
    Host.reduce f x init h hu j = Finset.univ.fold f b y := by
  rw [Host.reduce_eq_fold, Finset.filter_true_of_mem fun i _ => hall i, hb,
    ← Finset.map_univ_equiv (Equiv.ofBijective σ hσ), Finset.fold_map]
  exact congrArg (fun z => Finset.univ.fold f b z) (funext hx)

end Cert.Spec

end
-- ==== Proof.KI.AttnValue.lean ====
import proofs.«423507_j65481071407721_3_alg».proof.Proof.KI.Attn
import proofs.«423507_j65481071407721_3_alg».proof.Proof.KI.AttnPayload
import proofs.«423507_j65481071407721_3_alg».proof.Proof.Spec
import proofs.«423507_j65481071407721_3_alg».proof.Proof.SoftmaxLaw
import Idealize.ShloMosaic.Lib.ValueIdx
import Idealize.ShloMosaic.Lib.Pipeline.Value
import Idealize.ShloMosaic.Lib.ValueLayout
import Idealize.ShloMosaic.Lib.Tactic
import Idealize.ShloMosaic.PureOps.Ideal.Laws

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.ShloMosaic.Tactic Idealize.SL.Sem
open Idealize.ShloMosaic.Pipeline (Dat)

section Pieces
variable {F : FTy → Type} [FloatOps F]

theorem no_offsets : (![0, 0] : Fin 2 → Nat) = fun _ => 0 := funext fun a => by fin_cases a <;> rfl

-- Stores that tile the buffer leave their closed form, whatever it held.
theorem rd_eq (L : List (View.Piece (Elt F) S1024x1 .f32)) (h : View.Piece.tiledL L S1024x1.size = true) : rd L = View.canon L :=
  View.read_writes_eq_canon _ _ _ (View.cover_of_tiledL L _ h)

variable (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
  (x0 : Vec F S1024x1 .f32) (x1 : Vec F S1x1024 .f32) (x2 : Vec F S1x1024 .f32) (x3 : Vec F S1024x1 .f32) (xs0 xs1 : Vec F S1024x1 .f32)

-- What each case leaves, as payloads: A starts both sums from the reset values,
theorem pay_A (hc0 : cond1_0 i) (hc1 : ¬cond1_1 i) :
    (can3 (kernelRun1_A c i arg2 harg2 arg3 harg3 arg4 harg4 arg5 harg5 arg6 harg6 arg7 harg7 arg8 harg8 hc0 hc1 x0 x1 x2 x3)).2 = (k1_pay5 x0 x1 x3 (k1_pay2 (F := F)), k1_pay6 x0 x1 x2 x3 (k1_pay3 (F := F))) := by
  refine Prod.ext ?_ ?_ <;> (unfold can3; dsimp only; rw [rd_eq _ (by sl_kernel_rfl)]; unfold kernelRun1_A; dsimp only; sl_unfold_words; rw [View.canon_cons_unit_zero (S := S1024x1) no_offsets, View.readCov_unit_zero (S := S1024x1) _ no_offsets]; simp only [View.readAt_eq_ld, harg2.read_unread, harg3.read_unread, harg4.read_unread, harg5.read_unread, harg7.read_unread, harg8.read_unread, View.ld_unit_zero (S := S1024x1) no_offsets, View.ld_unit_zero (S := S1x1024) no_offsets])

-- B adds this tile's sums to the accumulators xs0, xs1,
theorem pay_B (hc0 : ¬cond1_0 i) (hc1 : ¬cond1_1 i) :
    (can3 (kernelRun1_B c i arg2 harg2 arg3 harg3 arg4 harg4 arg5 harg5 arg6 harg6 arg7 harg7 arg8 harg8 hc0 hc1 x0 x1 x2 x3 xs0 xs1)).2 = (k1_pay5 x0 x1 x3 xs0, k1_pay6 x0 x1 x2 x3 xs1) := by
  refine Prod.ext ?_ ?_ <;> (unfold can3; dsimp only; rw [rd_eq _ (by sl_kernel_rfl)]; unfold kernelRun1_B; dsimp only; sl_unfold_words; rw [View.canon_unit_zero no_offsets]; simp only [View.readAt_eq_ld, harg2.read_unread, harg3.read_unread, harg4.read_unread, harg5.read_unread, harg7.read_unread, harg8.read_unread, View.ld_unit_zero (S := S1024x1) no_offsets, View.ld_unit_zero (S := S1x1024) no_offsets])

-- C adds likewise and leaves their quotient in the output block.
theorem pay_C (hc0 : ¬cond1_0 i) (hc1 : cond1_1 i) :
    can3 (kernelRun1_C c i arg2 harg2 arg3 harg3 arg4 harg4 arg5 harg5 arg6 harg6 arg7 harg7 arg8 harg8 hc0 hc1 x0 x1 x2 x3 xs0 xs1) = (k1_pay1 (k1_pay6 x0 x1 x2 x3 xs1) (k1_pay5 x0 x1 x3 xs0), k1_pay5 x0 x1 x3 xs0, k1_pay6 x0 x1 x2 x3 xs1) := by
  refine Prod.ext ?_ (Prod.ext ?_ ?_) <;> (unfold can3; dsimp only; rw [rd_eq _ (by sl_kernel_rfl)]; unfold kernelRun1_C; dsimp only; sl_unfold_words; rw [View.canon_unit_zero no_offsets]; simp only [View.readCov_unit_zero (S := S1024x1) _ no_offsets, View.readAt_eq_ld, harg2.read_unread, harg3.read_unread, harg4.read_unread, harg5.read_unread, harg7.read_unread, harg8.read_unread, View.ld_unit_zero (S := S1024x1) no_offsets, View.ld_unit_zero (S := S1x1024) no_offsets])

end Pieces

-- Position p of tile b among the 8192 rows (or keys).
def rowAt (b : ℕ) (p : Fin 1024) : Fin 8192 := ⟨b % 8 * 1024 + p.val, by omega⟩

def tileD (l : Fin 8192 → ℝ) (r e : ℝ) (i : Fin 8192) (s : ℕ) : ℝ :=
  ∑ u : Fin 1024, Cert.Spec.weight l r e i (rowAt s u)

def tileN (l : Fin 8192 → ℝ) (r e : ℝ) (i : Fin 8192) (s : ℕ) : ℝ :=
  ∑ u : Fin 1024, Cert.Spec.weight l r e i (rowAt s u) * l (rowAt s u)

theorem sum_range_tiles (f : Fin 8192 → ℝ) :
    ∑ s ∈ Finset.range 8, ∑ u : Fin 1024, f (rowAt s u) = ∑ j, f j := by
  rw [Cert.Spec.sum_tiles f, Finset.sum_range]
  refine Finset.sum_congr rfl fun t _ => Finset.sum_congr rfl fun u _ => congrArg f (Fin.ext ?_)
  show t.val % 8 * 1024 + u.val = t.val * 1024 + u.val
  rw [Nat.mod_eq_of_lt t.isLt]

theorem tileD_all (l : Fin 8192 → ℝ) (r e : ℝ) (i : Fin 8192) :
    ∑ s ∈ Finset.range 8, tileD l r e i s = ∑ j, Cert.Spec.weight l r e i j :=
  sum_range_tiles fun j => Cert.Spec.weight l r e i j

theorem tileN_all (l : Fin 8192 → ℝ) (r e : ℝ) (i : Fin 8192) :
    ∑ s ∈ Finset.range 8, tileN l r e i s = ∑ j, Cert.Spec.weight l r e i j * l j :=
  sum_range_tiles fun j => Cert.Spec.weight l r e i j * l j

theorem quotient_all (l : Fin 8192 → ℝ) (r e : ℝ) (i : Fin 8192) :
    Ideal.div ((∑ s ∈ Finset.range 8, tileN l r e i s : ℝ) : EReal) ((∑ s ∈ Finset.range 8, tileD l r e i s : ℝ) : EReal)
      = ((Cert.Spec.attn l r e i : ℝ) : EReal) := by
  rw [tileN_all, tileD_all, Cert.Spec.div_coe' _ (Cert.Spec.sum_weight_ne l r e i)]
  rfl

theorem weight_coe (l : Fin 8192 → ℝ) (r e : ℝ) (i j : Fin 8192) :
    Ideal.exp (((l i * r : ℝ) : EReal) * ((l j * e : ℝ) : EReal) - ((Cert.Spec.rowMax l r e i : ℝ) : EReal))
      = ((Cert.Spec.weight l r e i j : ℝ) : EReal) := by
  rw [← EReal.coe_mul, ← EReal.coe_sub, Cert.Spec.exp_coe]
  rfl

theorem denom_step (l : Fin 8192 → ℝ) (r e : ℝ) (i : Fin 8192) (s : ℕ) (q : Vec Ideal S1024x1 .f32)
    (k : Vec Ideal S1x1024 .f32) (mm acc : Vec Ideal S1024x1 .f32) (p : Fin 1024) (a : ℝ)
    (hq : q (ix2 p (0 : Fin 1)) = ((l i * r : ℝ) : EReal))
    (hk : ∀ u : Fin 1024, k (ix2 (0 : Fin 1) u) = ((l (rowAt s u) * e : ℝ) : EReal))
    (hm : mm (ix2 p (0 : Fin 1)) = ((Cert.Spec.rowMax l r e i : ℝ) : EReal))
    (ha : acc (ix2 p (0 : Fin 1)) = (a : EReal)) :
    k1_pay5 (F := Ideal) q k mm acc (ix2 p (0 : Fin 1)) = ((a + tileD l r e i s : ℝ) : EReal) := by
  rw [denom_apply, ha, hq, hm, EReal.coe_add]
  refine congrArg ((a : EReal) + ·) ?_
  unfold tileD
  rw [Cert.Spec.coe_sum]
  exact Finset.sum_congr rfl fun u _ => by rw [hk u]; exact weight_coe l r e i (rowAt s u)

theorem numer_step (l : Fin 8192 → ℝ) (r e : ℝ) (i : Fin 8192) (s : ℕ) (q : Vec Ideal S1024x1 .f32)
    (k v : Vec Ideal S1x1024 .f32) (mm acc : Vec Ideal S1024x1 .f32) (p : Fin 1024) (a : ℝ)
    (hq : q (ix2 p (0 : Fin 1)) = ((l i * r : ℝ) : EReal))
    (hk : ∀ u : Fin 1024, k (ix2 (0 : Fin 1) u) = ((l (rowAt s u) * e : ℝ) : EReal))
    (hv : ∀ u : Fin 1024, v (ix2 (0 : Fin 1) u) = ((l (rowAt s u) : ℝ) : EReal))
    (hm : mm (ix2 p (0 : Fin 1)) = ((Cert.Spec.rowMax l r e i : ℝ) : EReal))
    (ha : acc (ix2 p (0 : Fin 1)) = (a : EReal)) :
    k1_pay6 (F := Ideal) q k v mm acc (ix2 p (0 : Fin 1)) = ((a + tileN l r e i s : ℝ) : EReal) := by
  rw [numer_apply, ha, hq, hm, EReal.coe_add]
  refine congrArg ((a : EReal) + ·) ?_
  unfold tileN
  rw [Cert.Spec.coe_sum]
  exact Finset.sum_congr rfl fun u _ => by rw [hk u, hv u, weight_coe, EReal.coe_mul]

def attnArr (l : Fin 8192 → ℝ) (r e : ℝ) : S8192x1.Idx → EReal := fun idx => ((Cert.Spec.attn l r e (idx 0) : ℝ) : EReal)

section Value
variable (V : (c : Dev nD) → (b : Ref sig .tc) → Buf (Elt Ideal) ((c : Thread nD τ).loc b)) (c : Dev nD)

theorem attn_block_indices : ∀ t : Fin cfg1.N,
    win1_0.index t (0 : Fin 2) = t.val / 8 ∧ win1_0.index t (1 : Fin 2) = 0
    ∧ win1_1.index t (0 : Fin 2) = 0 ∧ win1_1.index t (1 : Fin 2) = t.val % 8
    ∧ win1_2.index t (0 : Fin 2) = 0 ∧ win1_2.index t (1 : Fin 2) = t.val % 8
    ∧ win1_3.index t (0 : Fin 2) = t.val / 8 ∧ win1_3.index t (1 : Fin 2) = 0
    ∧ win1_4.index t (0 : Fin 2) = t.val / 8 ∧ win1_4.index t (1 : Fin 2) = 0 :=
  (by decide +kernel : ∀ t : Fin grid1.N, _)

theorem q_block_apply (t : Fin cfg1.N) (p : Fin 1024) :
    (iblk1 V c 0 t : Vec Ideal S1024x1 .f32) (ix2 p (0 : Fin 1))
      = (V c main_v8 : S8192x1.Idx → EReal) (ix2 (rowAt (t.val / 8) p) (0 : Fin 1)) := by
  obtain ⟨e0, e1, -⟩ := attn_block_indices t
  have ht : t.val < 64 := lt_of_lt_of_eq t.isLt N_1
  unfold iblk1
  rw [View.read_apply]
  show V c main_v8 _ = V c main_v8 _
  congr 1
  funext a
  apply Fin.ext
  match a with
  | ⟨0, _⟩ => show win1_0.index t (0 : Fin 2) * 1024 + 1 * p.val = t.val / 8 % 8 * 1024 + p.val; rw [e0]; omega
  | ⟨1, _⟩ => show win1_0.index t (1 : Fin 2) * 1 + 1 * 0 = 0; rw [e1]

theorem k_block_apply (t : Fin cfg1.N) (u : Fin 1024) :
    (iblk1 V c 1 t : Vec Ideal S1x1024 .f32) (ix2 (0 : Fin 1) u)
      = (V c main_v12 : S1x8192.Idx → EReal) (ix2 (0 : Fin 1) (rowAt (t.val % 8) u)) := by
  obtain ⟨-, -, e0, e1, -⟩ := attn_block_indices t
  unfold iblk1
  rw [View.read_apply]
  show V c main_v12 _ = V c main_v12 _
  congr 1
  funext a
  apply Fin.ext
  match a with
  | ⟨0, _⟩ => show win1_1.index t (0 : Fin 2) * 1 + 1 * 0 = 0; rw [e0]
  | ⟨1, _⟩ => show win1_1.index t (1 : Fin 2) * 1024 + 1 * u.val = t.val % 8 % 8 * 1024 + u.val; rw [e1]; omega

theorem v_block_apply (t : Fin cfg1.N) (u : Fin 1024) :
    (iblk1 V c 2 t : Vec Ideal S1x1024 .f32) (ix2 (0 : Fin 1) u)
      = (V c main_v13 : S1x8192.Idx → EReal) (ix2 (0 : Fin 1) (rowAt (t.val % 8) u)) := by
  obtain ⟨-, -, -, -, e0, e1, -⟩ := attn_block_indices t
  unfold iblk1
  rw [View.read_apply]
  show V c main_v13 _ = V c main_v13 _
  congr 1
  funext a
  apply Fin.ext
  match a with
  | ⟨0, _⟩ => show win1_2.index t (0 : Fin 2) * 1 + 1 * 0 = 0; rw [e0]
  | ⟨1, _⟩ => show win1_2.index t (1 : Fin 2) * 1024 + 1 * u.val = t.val % 8 % 8 * 1024 + u.val; rw [e1]; omega

theorem m_block_apply (t : Fin cfg1.N) (p : Fin 1024) :
    (iblk1 V c 3 t : Vec Ideal S1024x1 .f32) (ix2 p (0 : Fin 1))
      = (V c main_v22 : S8192x1.Idx → EReal) (ix2 (rowAt (t.val / 8) p) (0 : Fin 1)) := by
  obtain ⟨-, -, -, -, -, -, e0, e1, -⟩ := attn_block_indices t
  have ht : t.val < 64 := lt_of_lt_of_eq t.isLt N_1
  unfold iblk1
  rw [View.read_apply]
  show V c main_v22 _ = V c main_v22 _
  congr 1
  funext a
  apply Fin.ext
  match a with
  | ⟨0, _⟩ => show win1_3.index t (0 : Fin 2) * 1024 + 1 * p.val = t.val / 8 % 8 * 1024 + p.val; rw [e0]; omega
  | ⟨1, _⟩ => show win1_3.index t (1 : Fin 2) * 1 + 1 * 0 = 0; rw [e1]

theorem attn_mem_block (t : Fin cfg1.N) (i : S8192x1.Idx) :
    i ∈ ((cfg1.win 4).blk t).view.set ↔ ∀ a : Fin 2, win1_4.index t a * S1024x1.size a ≤ (i a).val ∧ (i a).val < win1_4.index t a * S1024x1.size a + S1024x1.size a := by
  show i ∈ ((View.whole main_v23).slice (win1_4.rect t)).set ↔ _
  rw [View.set_slice_whole, Rect.mem_set_unit]
  exact Iff.rfl

theorem attn_row_covered (i : S8192x1.Idx) :
    ∃ t : Fin cfg1.N, (cfg1.win 4).flush t = true ∧ i ∈ ((cfg1.win 4).blk t).view.set := by
  have h0 : (i 0).val < 8192 := (i 0).isLt
  have h1 : (i 1).val < 1 := (i 1).isLt
  have hN : cfg1.N = 64 := N_1
  have hlt : 8 * ((i 0).val / 1024) + 7 < cfg1.N := by rw [hN]; omega
  refine ⟨⟨8 * ((i 0).val / 1024) + 7, hlt⟩, (flush1_4 _).mpr (by show (8 * ((i 0).val / 1024) + 7) % 8 = 7; omega), ?_⟩
  obtain ⟨-, -, -, -, -, -, -, -, e0, e1⟩ := attn_block_indices ⟨8 * ((i 0).val / 1024) + 7, hlt⟩
  rw [attn_mem_block]
  intro a
  match a with
  | ⟨0, _⟩ =>
    show win1_4.index _ (0 : Fin 2) * 1024 ≤ (i 0).val ∧ (i 0).val < win1_4.index _ (0 : Fin 2) * 1024 + 1024
    rw [e0]
    show (8 * ((i 0).val / 1024) + 7) / 8 * 1024 ≤ (i 0).val ∧ (i 0).val < (8 * ((i 0).val / 1024) + 7) / 8 * 1024 + 1024
    omega
  | ⟨1, _⟩ =>
    show win1_4.index _ (1 : Fin 2) * 1 ≤ (i 1).val ∧ (i 1).val < win1_4.index _ (1 : Fin 2) * 1 + 1
    rw [e1]; omega

variable (l : Fin 8192 → ℝ) (r e : ℝ)
  (hq : ∀ i : Fin 8192, V c main_v8 (ix2 i 0) = ((l i * r : ℝ) : EReal))
  (hk : ∀ j : Fin 8192, V c main_v12 (ix2 0 j) = ((l j * e : ℝ) : EReal))
  (hv : ∀ j : Fin 8192, V c main_v13 (ix2 0 j) = ((l j : ℝ) : EReal))
  (hm : ∀ i : Fin 8192, V c main_v22 (ix2 i 0) = ((Cert.Spec.rowMax l r e i : ℝ) : EReal))
include hq hk hv hm

theorem point_inputs
    (t : Fin cfg1.N) (p : Fin 1024) :
    (iblk1 V c 0 t : Vec Ideal S1024x1 .f32) (ix2 p (0 : Fin 1)) = ((l (rowAt (t.val / 8) p) * r : ℝ) : EReal)
    ∧ (∀ u : Fin 1024, (iblk1 V c 1 t : Vec Ideal S1x1024 .f32) (ix2 (0 : Fin 1) u) = ((l (rowAt (t.val % 8) u) * e : ℝ) : EReal))
    ∧ (∀ u : Fin 1024, (iblk1 V c 2 t : Vec Ideal S1x1024 .f32) (ix2 (0 : Fin 1) u) = ((l (rowAt (t.val % 8) u) : ℝ) : EReal))
    ∧ (iblk1 V c 3 t : Vec Ideal S1024x1 .f32) (ix2 p (0 : Fin 1)) = ((Cert.Spec.rowMax l r e (rowAt (t.val / 8) p) : ℝ) : EReal) :=
  ⟨(q_block_apply V c t p).trans (hq _), fun u => (k_block_apply V c t u).trans (hk _),
    fun u => (v_block_apply V c t u).trans (hv _), (m_block_apply V c t p).trans (hm _)⟩

-- Row p of the two accumulators holds the reals aD, aN.
def accIs (x : Trip Ideal) (p : Fin 1024) (aD aN : ℝ) : Prop :=
  x.2.1 (ix2 p (0 : Fin 1)) = (aD : EReal) ∧ x.2.2 (ix2 p (0 : Fin 1)) = (aN : EReal)

-- A point whose accumulators come from x adds its tile's two sums to x's.
theorem acc_step (t : Fin cfg1.N) (p : Fin 1024) (aD aN : ℝ) (x : Trip Ideal) (hx : accIs x p aD aN)
    (hout : (outsAt1 V c t.val t.isLt).2 = (k1_pay5 (iblk1 V c 0 t) (iblk1 V c 1 t) (iblk1 V c 3 t) x.2.1,
      k1_pay6 (iblk1 V c 0 t) (iblk1 V c 1 t) (iblk1 V c 2 t) (iblk1 V c 3 t) x.2.2)) :
    accIs (outsAt1 V c t.val t.isLt) p (aD + tileD l r e (rowAt (t.val / 8) p) (t.val % 8))
      (aN + tileN l r e (rowAt (t.val / 8) p) (t.val % 8)) := by
  obtain ⟨iq, ik, iv, im⟩ := point_inputs V c l r e hq hk hv hm t p
  unfold accIs
  rw [hout]
  exact ⟨denom_step l r e _ _ _ _ _ _ p aD iq ik im hx.1, numer_step l r e _ _ _ _ _ _ _ p aN iq ik iv im hx.2⟩

-- After point n the accumulators hold the sums over the tiles of its sweep so far.
theorem acc_inv : ∀ (n : ℕ) (hn : n < cfg1.N) (p : Fin 1024), accIs (outsAt1 V c n hn) p
    (∑ s ∈ Finset.range (n % 8 + 1), tileD l r e (rowAt (n / 8) p) s) (∑ s ∈ Finset.range (n % 8 + 1), tileN l r e (rowAt (n / 8) p) s) := by
  have hA : ∀ (t : Fin cfg1.N) (p : Fin 1024), t.val % 8 = 0 → accIs (outsAt1 V c t.val t.isLt) p
      (∑ s ∈ Finset.range (t.val % 8 + 1), tileD l r e (rowAt (t.val / 8) p) s) (∑ s ∈ Finset.range (t.val % 8 + 1), tileN l r e (rowAt (t.val / 8) p) s) := fun t p h0 => by
    have h := acc_step V c l r e hq hk hv hm t p 0 0 (k1_pay2 (F := Ideal), k1_pay2 (F := Ideal), k1_pay3 (F := Ideal))
      ⟨(denom_reset_apply (ix2 p 0)).trans EReal.coe_zero.symm, (numer_reset_apply (ix2 p 0)).trans EReal.coe_zero.symm⟩ (by rw [outsAt1_A V c t h0, pay_A])
    simpa only [Finset.sum_range_succ, h0, Finset.sum_range_zero] using h
  intro n
  induction n with
  | zero => exact fun hn p => hA ⟨0, hn⟩ p rfl
  | succ n ih =>
    intro hn p
    by_cases h0 : (n + 1) % 8 = 0
    · exact hA ⟨n + 1, hn⟩ p h0
    · have h := acc_step V c l r e hq hk hv hm ⟨n + 1, hn⟩ p _ _ _ (ih (Nat.lt_of_succ_lt hn) p) (by
        by_cases h1 : (n + 1) % 8 = 7
        · rw [outsAt1_C V c ⟨n + 1, hn⟩ h0 h1, pay_C]; rfl
        · rw [outsAt1_B V c ⟨n + 1, hn⟩ h0 h1, pay_B]; rfl)
      have hdiv : n / 8 = (n + 1) / 8 := by omega
      have hmod : n % 8 + 1 = (n + 1) % 8 := by omega
      dsimp only at h
      rw [← hdiv, ← hmod] at h ⊢
      simpa only [Finset.sum_range_succ] using h

theorem out_last
    (t : Fin cfg1.N) (h7 : t.val % 8 = 7) (p : Fin 1024) :
    (outsAt1 V c t.val t.isLt).1 (ix2 p (0 : Fin 1)) = ((Cert.Spec.attn l r e (rowAt (t.val / 8) p) : ℝ) : EReal) := by
  have h0 : ¬t.val % 8 = 0 := by omega
  have hout : (outsAt1 V c t.val t.isLt).1
      = k1_pay1 (F := Ideal) (outsAt1 V c t.val t.isLt).2.2 (outsAt1 V c t.val t.isLt).2.1 := by
    rw [outsAt1_C V c t h0 h7, pay_C]
  obtain ⟨iD, iN⟩ := acc_inv V c l r e hq hk hv hm t.val t.isLt p
  rw [hout, quotient_apply, iN, iD, h7]
  exact quotient_all l r e _

theorem attn_written_back
    (t : Fin cfg1.N) (hf : (cfg1.win 4).flush t = true) :
    (dat1 V c).flushed 4 t = ((cfg1.win 4).blk t).view.read (Elt Ideal) (attnArr l r e) := by
  have h7 : t.val % 8 = 7 := (flush1_4 t).mp hf
  show (cfg1.win 4).cut (grid1.coords t) ((dat1 V c).after 4 t) = _
  rw [after1_4]
  obtain ⟨-, -, -, -, -, -, -, -, e0, e1⟩ := attn_block_indices t
  have ht : t.val < 64 := lt_of_lt_of_eq t.isLt N_1
  funext j
  obtain ⟨p, u, rfl⟩ : ∃ (p : Fin 1024) (u : Fin 1), j = ix2 p u := ⟨j 0, j 1, eq_ix2 j⟩
  obtain rfl : u = 0 := Subsingleton.elim _ _
  have hxj : (cfg1.win 4).xinj (grid1.coords t) (ix2 p (0 : Fin 1)) = ix2 p (0 : Fin 1) := funext fun a => Fin.ext (by
    match a with
    | ⟨0, _⟩ => rfl
    | ⟨1, _⟩ => rfl)
  have hrow : ((cfg1.win 4).blk t).view.emb (ix2 p (0 : Fin 1)) (0 : Fin 2) = rowAt (t.val / 8) p :=
    Fin.ext (by show win1_4.index t (0 : Fin 2) * 1024 + 1 * p.val = t.val / 8 % 8 * 1024 + p.val; rw [e0]; omega)
  rw [View.read_apply]
  show (outsAt1 V c t.val t.isLt).1 ((cfg1.win 4).xinj (grid1.coords t) (ix2 p (0 : Fin 1)))
      = attnArr l r e (((cfg1.win 4).blk t).view.emb (ix2 p (0 : Fin 1)))
  rw [hxj]
  unfold attnArr
  rw [hrow]
  exact out_last V c l r e hq hk hv hm t h7 p

theorem attn_array :
    (dat1 V c).arrAt 4 cfg1.N = attnArr l r e :=
  (dat1 V c).arrAt_eq_of_cover 4 (attnArr l r e) (fun t hf => attn_written_back V c l r e hq hk hv hm t hf) attn_row_covered

theorem attn_final
    (i : Fin 8192) :
    (dat1 V c).arrAt 4 cfg1.N (ix2 i 0) = ((Cert.Spec.attn l r e i : ℝ) : EReal) := by
  rw [attn_array V c l r e hq hk hv hm]
  rfl

end Value

end Cert.KernelIdeal.Val

end
-- ==== Proof.KGlue.lean ====
import proofs.«423507_j65481071407721_3_alg».proof.Proof.Gen.KernelIdeal.Regions
import proofs.«423507_j65481071407721_3_alg».proof.Proof.Spec
import Idealize.ShloMosaic.Lib.StableHlo.Run
import Idealize.ShloMosaic.Lib.Pipeline.Value
import Idealize.ShloMosaic.Lib.ValueIdx
import Idealize.ShloMosaic.Lib.IdealHost

set_option maxRecDepth 1064

noncomputable section

namespace Cert.KernelIdeal.Glue

open Cert.KernelIdeal Cert.KernelIdeal.Gen Idealize.ShloMosaic Idealize.ShloMosaic.TcCoe
open Idealize.ShloMosaic.ValueIdx Idealize.ShloMosaic.StableHlo

variable (m : (ℓ : Loc nD τ sig) → Buf (Elt Ideal) ℓ) (outs : Outs (F := Ideal)) (c : Dev nD)

theorem v0_apply (a : Fin 128) :
    V1 m c main_v0 (ix2 0 a) = m ((c : Thread nD τ).loc main_arg2) (ix1 a) := by
  dsimp only [V1, V0, hostOps0]; after_results
  exact shapeCast_apply _ _ (ix2 (0 : Fin 1) a) (ix1 a) (by
    rw [Shape.rowMajor_val_two, Shape.rowMajor_val_one]; show a.val = 0 * 128 + a.val; omega)

theorem v1_apply (b : Fin 64) :
    V1 m c main_v1 (ix2 0 b) = m ((c : Thread nD τ).loc main_arg4) (ix1 b) := by
  dsimp only [V1, V0, hostOps0]; after_results
  exact shapeCast_apply _ _ (ix2 (0 : Fin 1) b) (ix1 b) (by
    rw [Shape.rowMajor_val_two, Shape.rowMajor_val_one]; show b.val = 0 * 64 + b.val; omega)

theorem v2_apply :
    V1 m c main_v2 (ix2 0 0) = m ((c : Thread nD τ).loc main_arg6) (ix1 0) := by
  dsimp only [V1, V0, hostOps0]; after_results
  exact shapeCast_apply _ _ (ix2 (0 : Fin 1) (0 : Fin 1)) (ix1 (0 : Fin 1)) (by
    rw [Shape.rowMajor_val_two, Shape.rowMajor_val_one]; rfl)

theorem V1_arg0 : V1 m c main_arg0 = m ((c : Thread nD τ).loc main_arg0) := V1_of m c main_arg0 (by decide)
theorem V1_arg1 : V1 m c main_arg1 = m ((c : Thread nD τ).loc main_arg1) := V1_of m c main_arg1 (by decide)
theorem V1_arg3 : V1 m c main_arg3 = m ((c : Thread nD τ).loc main_arg3) := V1_of m c main_arg3 (by decide)
theorem V1_arg5 : V1 m c main_arg5 = m ((c : Thread nD τ).loc main_arg5) := V1_of m c main_arg5 (by decide)

end Cert.KernelIdeal.Glue

end
-- ==== Proof.KGlueAttn.lean ====
import proofs.«423507_j65481071407721_3_alg».proof.Proof.Gen.KernelIdeal.Regions
import proofs.«423507_j65481071407721_3_alg».proof.Proof.SoftmaxLaw
import Idealize.ShloMosaic.Lib.StableHlo.Run
import Idealize.ShloMosaic.Lib.Pipeline.Value
import Idealize.ShloMosaic.Lib.ValueIdx
import Idealize.ShloMosaic.Lib.IdealHost
import Idealize.ShloMosaic.PureOps.Reduce
import Idealize.ShloMosaic.PureOps.Ideal.Laws
import Mathlib.Data.Finset.Fold
import Mathlib.Data.Finset.Lattice.Fold

set_option maxRecDepth 1064

noncomputable section

namespace Cert.KernelIdeal.Glue

open Cert.KernelIdeal Cert.KernelIdeal.Gen Idealize.ShloMosaic Idealize.ShloMosaic.TcCoe
open Idealize.ShloMosaic.ValueIdx Idealize.ShloMosaic.StableHlo

variable (m : (ℓ : Loc nD τ sig) → Buf (Elt Ideal) ℓ) (outs : Outs (F := Ideal)) (c : Dev nD)

def qT (x3 : FVec Ideal S8192x1 .f32) (a7 : FVec Ideal S1x1 .f32) : FVec Ideal S8192x1 .f32 :=
  mulf (mulf x3 (broadcastInDim S8192x1 ![] bcast_S_S8192x1 (shapeCast S_ a7 shapeCasts_S1x1_S_)))
    (broadcastInDim S8192x1 ![] bcast_S_S8192x1 (constant (F := Ideal) S_ .f32 0x3F800000#32))

def kT (x3 : FVec Ideal S8192x1 .f32) (a8 : FVec Ideal S1x1 .f32) : FVec Ideal S1x8192 .f32 :=
  shapeCast S1x8192 (mulf x3 (broadcastInDim S8192x1 ![] bcast_S_S8192x1 (shapeCast S_ a8 shapeCasts_S1x1_S_)))
    shapeCasts_S8192x1_S1x8192

def vT (x3 : FVec Ideal S8192x1 .f32) : FVec Ideal S1x8192 .f32 :=
  shapeCast S1x8192 x3 shapeCasts_S8192x1_S1x8192

def mxT (k : FVec Ideal S1x8192 .f32) : FVec Ideal S_ .f32 :=
  Host.reduce FloatOps.maximumf k (constant (F := Ideal) S_ .f32 0xFF800000#32) reducesTo_S1x8192_S_d0_1 h_S_

def mnT (k : FVec Ideal S1x8192 .f32) : FVec Ideal S_ .f32 :=
  Host.reduce FloatOps.minimumf k (constant (F := Ideal) S_ .f32 0x7F800000#32) reducesTo_S1x8192_S_d0_1 h_S_

def mT (x3 : FVec Ideal S8192x1 .f32) (a7 a8 : FVec Ideal S1x1 .f32) : FVec Ideal S8192x1 .f32 :=
  select (cmpf .oge (qT x3 a7) (broadcastInDim S8192x1 ![] bcast_S_S8192x1 (constant (F := Ideal) S_ .f32 0x00000000#32)))
    (mulf (qT x3 a7) (broadcastInDim S8192x1 ![] bcast_S_S8192x1 (mxT (kT x3 a8))))
    (mulf (qT x3 a7) (broadcastInDim S8192x1 ![] bcast_S_S8192x1 (mnT (kT x3 a8))))

theorem v22_term :
    (V4 m outs c main_v22 : S8192x1.Idx → EReal)
      = mT (V2 m outs c main_v3) (m ((c : Thread nD τ).loc main_arg7)) (m ((c : Thread nD τ).loc main_arg8)) := by
  dsimp only [V4, hostOps1_1, V3, hostOps1]; after_results_simp <;> (try simp only [TRef.ofBuf, TRef.toBuf, cast_eq])
  rw [V2_of m outs c main_arg7 (by decide), V1_of m c main_arg7 (by decide),
    V2_of m outs c main_arg8 (by decide), V1_of m c main_arg8 (by decide)]
  rfl

theorem scalar_apply (a : FVec Ideal S1x1 .f32) :
    shapeCast S_ a shapeCasts_S1x1_S_ ix0 = a (ix2 0 0) :=
  shapeCast_apply a _ ix0 (ix2 (0 : Fin 1) (0 : Fin 1)) (by
    rw [Shape.rowMajor_val_two]
    exact (Shape.rowMajorPi_zero _ _).symm)

theorem vT_apply (x3 : FVec Ideal S8192x1 .f32) (j : Fin 8192) : vT x3 (ix2 0 j) = x3 (ix2 j 0) :=
  shapeCast_apply _ shapeCasts_S8192x1_S1x8192 (ix2 (0 : Fin 1) j) (ix2 j (0 : Fin 1)) (by
    rw [Shape.rowMajor_val_two, Shape.rowMajor_val_two]; show j.val * 1 + 0 = 0 * 8192 + j.val; omega)

theorem row_bijective : Function.Bijective (fun j : Fin 8192 => (ix2 (0 : Fin 1) j : S1x8192.Idx)) := by
  refine ⟨fun a b h => ?_, fun i => ⟨i 1, ?_⟩⟩
  · exact congrFun h 1
  · show ix2 (0 : Fin 1) (i 1) = i
    exact (congrArg (fun z : Fin 1 => (ix2 z (i 1) : S1x8192.Idx)) (Subsingleton.elim (0 : Fin 1) (i 0))).trans (eq_ix2 i).symm

theorem mxT_apply (k : FVec Ideal S1x8192 .f32) (g : Fin 8192 → ℝ) (hk : ∀ j, k (ix2 0 j) = ((g j : ℝ) : EReal)) :
    mxT k ix0 = ((Finset.univ.sup' Finset.univ_nonempty g : ℝ) : EReal) := by
  unfold mxT
  exact (Cert.Spec.hostReduce_all FloatOps.maximumf k _ _ _ ix0 (fun i => funext fun a => a.elim0)
    ((constant_apply _ _).trans Cert.Spec.neg_inf_word) _ row_bijective hk).trans (Cert.Spec.fold_max_coe _ _ _)

theorem mnT_apply (k : FVec Ideal S1x8192 .f32) (g : Fin 8192 → ℝ) (hk : ∀ j, k (ix2 0 j) = ((g j : ℝ) : EReal)) :
    mnT k ix0 = ((Finset.univ.inf' Finset.univ_nonempty g : ℝ) : EReal) := by
  unfold mnT
  exact (Cert.Spec.hostReduce_all FloatOps.minimumf k _ _ _ ix0 (fun i => funext fun a => a.elim0)
    ((constant_apply _ _).trans Cert.Spec.pos_inf_word) _ row_bijective hk).trans (Cert.Spec.fold_min_coe _ _ _)

theorem select_ge (x a b : ℝ) :
    Scalar.select (Ideal.cmp .oge (x : EReal) (Ideal.ofBits .f32 0x00000000#32)) ((x : EReal) * (a : EReal))
        ((x : EReal) * (b : EReal))
      = (((if 0 ≤ x then x * a else x * b : ℝ)) : EReal) := by
  rw [Ideal.ofBits_zero_f32]
  by_cases h : 0 ≤ x
  · have h' : (0 : EReal) ≤ (x : EReal) := EReal.coe_nonneg.2 h
    rw [if_pos h, EReal.coe_mul]
    simp only [Scalar.select, Ideal.cmp, h', decide_true, BitVec.ofBool_true, if_true]
  · have h' : ¬ (0 : EReal) ≤ (x : EReal) := fun hh => h (EReal.coe_nonneg.1 hh)
    rw [if_neg h, EReal.coe_mul]
    simp [Scalar.select, Ideal.cmp, h']

section Operands

variable (l : Fin 8192 → ℝ) (r e : ℝ)
variable (hl : ∀ i : Fin 8192, V2 m outs c main_v3 (ix2 i 0) = ((l i : ℝ) : EReal))
variable (hr : m ((c : Thread nD τ).loc main_arg7) (ix2 0 0) = ((r : ℝ) : EReal))
variable (he : m ((c : Thread nD τ).loc main_arg8) (ix2 0 0) = ((e : ℝ) : EReal))

include hl hr in
theorem qT_coe (i : Fin 8192) :
    qT (V2 m outs c main_v3) (m ((c : Thread nD τ).loc main_arg7)) (ix2 i 0) = ((l i * r : ℝ) : EReal) := by
  rw [qT, mulf_apply, mulf_apply, broadcastInDim_scalar_apply, broadcastInDim_scalar_apply, scalar_apply, constant_apply,
    hl, hr, ← EReal.coe_mul]
  exact (congrArg (_ * ·) Ideal.ofBits_one_f32).trans (mul_one _)

include hl he in
theorem kT_coe (j : Fin 8192) :
    kT (V2 m outs c main_v3) (m ((c : Thread nD τ).loc main_arg8)) (ix2 0 j) = ((l j * e : ℝ) : EReal) := by
  refine (vT_apply _ j).trans ?_
  rw [mulf_apply, broadcastInDim_scalar_apply, scalar_apply, hl, he, ← EReal.coe_mul]

include hl hr in

theorem q_apply (i : Fin 8192) : V4 m outs c main_v8 (ix2 i 0) = ((l i * r : ℝ) : EReal) := by
  rw [V4_of m outs c main_v8 (by decide)]
  dsimp only [V3, hostOps1]; after_results
  rw [V2_of m outs c main_arg7 (by decide), V1_of m c main_arg7 (by decide)]
  exact qT_coe m outs c l r hl hr i

include hl he in

theorem k_apply (j : Fin 8192) : V4 m outs c main_v12 (ix2 0 j) = ((l j * e : ℝ) : EReal) := by
  rw [V4_of m outs c main_v12 (by decide)]
  dsimp only [V3, hostOps1]; after_results
  rw [V2_of m outs c main_arg8 (by decide), V1_of m c main_arg8 (by decide)]
  exact kT_coe m outs c l e hl he j

include hl in

theorem v_apply (j : Fin 8192) : V4 m outs c main_v13 (ix2 0 j) = ((l j : ℝ) : EReal) := by
  rw [V4_of m outs c main_v13 (by decide)]
  dsimp only [V3, hostOps1]; after_results
  exact (vT_apply _ j).trans (hl j)

include hl hr he in

theorem m_apply (i : Fin 8192) :
    V4 m outs c main_v22 (ix2 i 0) = ((Cert.Spec.rowMax l r e i : ℝ) : EReal) := by
  refine (congrFun (v22_term m outs c) (ix2 i 0)).trans ?_
  rw [mT, select_apply, cmpf_apply, mulf_apply, mulf_apply, broadcastInDim_scalar_apply, broadcastInDim_scalar_apply,
    broadcastInDim_scalar_apply, constant_apply, qT_coe m outs c l r hl hr i,
    mxT_apply _ _ (kT_coe m outs c l e hl he), mnT_apply _ _ (kT_coe m outs c l e hl he), Cert.Spec.rowMax_eq]
  exact select_ge _ _ _

end Operands

end Cert.KernelIdeal.Glue

end
-- ==== Proof.Finite.lean ====
import proofs.«423507_j65481071407721_3_alg».proof.Proof.SoftmaxLaw
import Idealize.ShloMosaic.PureOps.Ideal.Laws
import Mathlib.Data.EReal.Basic
import Mathlib.Order.Lattice
import Mathlib.Algebra.BigOperators.Group.Finset.Basic

noncomputable section

namespace Cert.Spec

open Idealize.ShloMosaic

theorem z32_eq_coe : z32 = ((0 : ℝ) : EReal) :=
  Ideal.ofBits_zero_f32.trans EReal.coe_zero.symm

theorem coe_max (a b : ℝ) : ((max a b : ℝ) : EReal) = max (a : EReal) (b : EReal) :=
  EReal.coe_strictMono.monotone.map_max

variable (x : Fin 8192 → Fin 4096 → ℝ) (W1 : Fin 4096 → Fin 128 → ℝ) (b1 : Fin 128 → ℝ)
  (W2 : Fin 128 → Fin 64 → ℝ) (b2 : Fin 64 → ℝ) (W3 : Fin 64 → ℝ) (b3 : ℝ) (i : Fin 8192)

def latR : ℝ :=
  (∑ b : Fin 64, max ((∑ a : Fin 128, max ((∑ k : Fin 4096, x i k * W1 k a) + b1 a) 0 * W2 a b) + b2 b) 0 * W3 b) + b3

theorem lat_coe :
    lat (fun i k => (x i k : EReal)) (fun k a => (W1 k a : EReal)) (fun a => (b1 a : EReal))
        (fun a b => (W2 a b : EReal)) (fun b => (b2 b : EReal)) (fun b => (W3 b : EReal)) (b3 : EReal) i
      = (latR x W1 b1 W2 b2 W3 b3 i : EReal) := by
  unfold lat hid2 hid1 latR
  simp only [← EReal.coe_mul, ← coe_sum, ← EReal.coe_add, z32_eq_coe, ← coe_max]

end Cert.Spec

end
-- ==== Proof.TailDef.lean ====
import proofs.«423507_j65481071407721_3_alg».proof.Proof.Gen.KernelIdeal
import Idealize.ShloMosaic.PureOps.Ideal

noncomputable section

namespace Cert.TailValue

open Idealize.ShloMosaic Cert.KernelIdeal Cert.KernelIdeal.Gen

abbrev zero0 : FVec Ideal S_ .f32 := constant S_ .f32 0x00000000#32

abbrev rows0 : FVec Ideal S_ .f32 := constant S_ .f32 0x46000000#32

abbrev eps0 : FVec Ideal S_ .f32 := constant S_ .f32 0x3727C5AC#32

def lin1 (a : FVec Ideal S8192x1 .f32) (x9 : FVec Ideal S1x8 .f32) (x10 : FVec Ideal S8 .f32) : FVec Ideal S8192x8 .f32 :=
  maximumf
    (addf (Host.dotGeneral dot_S8192x1_S1x8_S8192x8_1_0_0_1_n_n (some .fp32) a x9)
      (broadcastInDim S8192x8 ![0, 1] bcast_S1x8_S8192x8_0_1 (broadcastInDim S1x8 ![1] bcast_S8_S1x8_1 x10)))
    (broadcastInDim S8192x8 ![] bcast_S_S8192x8 zero0)

def lin2 (h : FVec Ideal S8192x8 .f32) (x11 : FVec Ideal S8x16 .f32) (x12 : FVec Ideal S16 .f32) : FVec Ideal S8192x16 .f32 :=
  maximumf
    (addf (Host.dotGeneral dot_S8192x8_S8x16_S8192x16_1_0_0_1_n_n (some .fp32) h x11)
      (broadcastInDim S8192x16 ![0, 1] bcast_S1x16_S8192x16_0_1 (broadcastInDim S1x16 ![1] bcast_S16_S1x16_1 x12)))
    (broadcastInDim S8192x16 ![] bcast_S_S8192x16 zero0)

def lin3 (h : FVec Ideal S8192x16 .f32) (x13 : FVec Ideal S16x64 .f32) (x14 : FVec Ideal S64 .f32) : FVec Ideal S8192x64 .f32 :=
  maximumf
    (addf (Host.dotGeneral dot_S8192x16_S16x64_S8192x64_1_0_0_1_n_n (some .fp32) h x13)
      (broadcastInDim S8192x64 ![0, 1] bcast_S1x64_S8192x64_0_1 (broadcastInDim S1x64 ![1] bcast_S64_S1x64_1 x14)))
    (broadcastInDim S8192x64 ![] bcast_S_S8192x64 zero0)

def onRows (v : FVec Ideal S4 .f32) : FVec Ideal S8192x4 .f32 :=
  broadcastInDim S8192x4 ![0, 1] bcast_S1x4_S8192x4_0_1 (broadcastInDim S1x4 ![1] bcast_S4_S1x4_1 v)

def lin4 (h : FVec Ideal S8192x64 .f32) (x15 : FVec Ideal S64x4 .f32) (x16 : FVec Ideal S4 .f32) : FVec Ideal S8192x4 .f32 :=
  addf (Host.dotGeneral dot_S8192x64_S64x4_S8192x4_1_0_0_1_n_n (some .fp32) h x15)
    (onRows x16)

def colMean (y : FVec Ideal S8192x4 .f32) : FVec Ideal S4 .f32 :=
  Host.divf (Host.reduceAdd y zero0 reducesTo_S8192x4_S4_d0 h_S_) (broadcastInDim S4 ![] bcast_S_S4 rows0)

def centred (y : FVec Ideal S8192x4 .f32) : FVec Ideal S8192x4 .f32 :=
  subf y (onRows (colMean y))

def colVar (y : FVec Ideal S8192x4 .f32) : FVec Ideal S4 .f32 :=
  colMean (mulf (centred y) (centred y))

def bnorm (y : FVec Ideal S8192x4 .f32) (x17 x18 : FVec Ideal S4 .f32) : FVec Ideal S8192x4 .f32 :=
  addf
    (mulf
      (mulf (centred y) (onRows (Host.rsqrt (addf (colVar y) (broadcastInDim S4 ![] bcast_S_S4 eps0)))))
      (onRows x17))
    (onRows x18)

def head (z : FVec Ideal S8192x4 .f32) (x19 : FVec Ideal S4x8 .f32) (x20 : FVec Ideal S8 .f32)
    (x21 : FVec Ideal S8x1 .f32) (x22 : FVec Ideal S1 .f32) : FVec Ideal S8192 .f32 :=
  shapeCast S8192
    (addf
      (Host.dotGeneral dot_S8192x8_S8x1_S8192x1_1_0_0_1_n_n (some .fp32)
        (Host.tanh
          (addf (Host.dotGeneral dot_S8192x4_S4x8_S8192x8_1_0_0_1_n_n (some .fp32) z x19)
            (broadcastInDim S8192x8 ![0, 1] bcast_S1x8_S8192x8_0_1 (broadcastInDim S1x8 ![1] bcast_S8_S1x8_1 x20))))
        x21)
      (broadcastInDim S8192x1 ![0, 1] bcast_S1x1_S8192x1_0_1 (broadcastInDim S1x1 ![1] bcast_S1_S1x1_1 x22)))
    shapeCasts_S8192x1_S8192

def tail (a : FVec Ideal S8192x1 .f32)
    (x9 : FVec Ideal S1x8 .f32) (x10 : FVec Ideal S8 .f32) (x11 : FVec Ideal S8x16 .f32) (x12 : FVec Ideal S16 .f32)
    (x13 : FVec Ideal S16x64 .f32) (x14 : FVec Ideal S64 .f32) (x15 : FVec Ideal S64x4 .f32) (x16 x17 x18 : FVec Ideal S4 .f32)
    (x19 : FVec Ideal S4x8 .f32) (x20 : FVec Ideal S8 .f32) (x21 : FVec Ideal S8x1 .f32) (x22 : FVec Ideal S1 .f32) :
    FVec Ideal S8192 .f32 :=
  head (bnorm (lin4 (lin3 (lin2 (lin1 a x9 x10) x11 x12) x13 x14) x15 x16) x17 x18) x19 x20 x21 x22

end Cert.TailValue

end
-- ==== Proof.Tail.lean ====
import proofs.«423507_j65481071407721_3_alg».proof.Proof.TailDef
import proofs.«423507_j65481071407721_3_alg».proof.Proof.Gen.KernelIdeal.Regions

noncomputable section

namespace Cert.TailValue

open Idealize.ShloMosaic Idealize.ShloMosaic.TcCoe Idealize.SL.Sem Idealize.ShloMosaic.StableHlo
open Cert.KernelIdeal Cert.KernelIdeal.Gen

set_option maxHeartbeats 4000000 in
-- Run from any contents, the operations after the attention compute the tail of what those contents hold.
theorem after_tail (V : Valuation τ sig (Elt Ideal)) {a x9 x10 x11 x12 x13 x14 x15 x16 x17 x18 x19 x20 x21 x22}
    (ha : V main_v23 = a) (h9 : V main_arg9 = x9) (h10 : V main_arg10 = x10) (h11 : V main_arg11 = x11)
    (h12 : V main_arg12 = x12) (h13 : V main_arg13 = x13) (h14 : V main_arg14 = x14) (h15 : V main_arg15 = x15)
    (h16 : V main_arg16 = x16) (h17 : V main_arg17 = x17) (h18 : V main_arg18 = x18) (h19 : V main_arg19 = x19)
    (h20 : V main_arg20 = x20) (h21 : V main_arg21 = x21) (h22 : V main_arg22 = x22) :
    StableHlo.after hostOps2_6 (StableHlo.after hostOps2_5 (StableHlo.after hostOps2_4 (StableHlo.after hostOps2_3
      (StableHlo.after hostOps2_2 (StableHlo.after hostOps2_1 (StableHlo.after hostOps2 V)))))) main_v77
      = tail a x9 x10 x11 x12 x13 x14 x15 x16 x17 x18 x19 x20 x21 x22 := by
  subst ha h9 h10 h11 h12 h13 h14 h15 h16 h17 h18 h19 h20 h21 h22
  dsimp only [hostOps2, hostOps2_1, hostOps2_2, hostOps2_3, hostOps2_4, hostOps2_5, hostOps2_6]
  after_results_simp
  rfl

variable (m : (ℓ : Loc nD τ sig) → Buf (Elt Ideal) ℓ) (outs : Outs (F := Ideal)) (c : Dev nD)

-- An array that nothing before the tail writes still holds its initial contents where the tail starts.
theorem kept (r : Ref sig .tc) (h1 : r ∉ hostOps0_W := by decide) (h2 : r ∉ [main_v3] := by decide)
    (h3 : r ∉ hostOps1_W := by decide) (h4 : r ∉ hostOps1_1_W := by decide) (h5 : r ∉ [main_v23] := by decide) :
    V5 m outs c r = V0 m c r :=
  (V5_of m outs c r h5).trans <| (V4_of m outs c r h4).trans <| (V3_of m outs c r h3).trans <|
    (V2_of m outs c r h2).trans <| V1_of m c r h1

theorem kernel_tail :
    (V12 m outs c main_v77 : FVec Ideal S8192 .f32)
      = tail (V5 m outs c main_v23)
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17))
          (m ((c : Thread nD τ).loc main_arg18)) (m ((c : Thread nD τ).loc main_arg19)) (m ((c : Thread nD τ).loc main_arg20))
          (m ((c : Thread nD τ).loc main_arg21)) (m ((c : Thread nD τ).loc main_arg22)) :=
  have k := @kept m outs c
  after_tail (V5 m outs c) rfl (k main_arg9) (k main_arg10) (k main_arg11) (k main_arg12) (k main_arg13) (k main_arg14)
    (k main_arg15) (k main_arg16) (k main_arg17) (k main_arg18) (k main_arg19) (k main_arg20) (k main_arg21) (k main_arg22)

end Cert.TailValue

end
-- ==== Proof.KI.KValue.lean ====
import proofs.«423507_j65481071407721_3_alg».proof.Proof.KI.Run
import proofs.«423507_j65481071407721_3_alg».proof.Proof.KI.EncValue
import proofs.«423507_j65481071407721_3_alg».proof.Proof.KI.AttnValue
import proofs.«423507_j65481071407721_3_alg».proof.Proof.KGlue
import proofs.«423507_j65481071407721_3_alg».proof.Proof.KGlueAttn
import proofs.«423507_j65481071407721_3_alg».proof.Proof.Finite
import proofs.«423507_j65481071407721_3_alg».proof.Proof.TailDef
import proofs.«423507_j65481071407721_3_alg».proof.Proof.Tail
import proofs.«423507_j65481071407721_3_alg».proof.Proof.Spec
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Cert.Spec

section
variable (m : (ℓ : Loc nD τ sig) → Buf (Elt Ideal) ℓ)

variable (c : Dev nD)
  (X : Fin 8192 → Fin 4096 → ℝ) (W1 : Fin 4096 → Fin 128 → ℝ) (b1 : Fin 128 → ℝ) (W2 : Fin 128 → Fin 64 → ℝ)
  (b2 : Fin 64 → ℝ) (W3 : Fin 64 → ℝ) (b3 : ℝ) (r e : ℝ)
  (hX : ∀ (i : Fin 8192) (k : Fin 4096), m ((c : Thread nD τ).loc main_arg0) (ix2 i k) = ((X i k : ℝ) : EReal))
  (hW1 : ∀ (k : Fin 4096) (a : Fin 128), m ((c : Thread nD τ).loc main_arg1) (ix2 k a) = ((W1 k a : ℝ) : EReal))
  (hb1 : ∀ a : Fin 128, m ((c : Thread nD τ).loc main_arg2) (ix1 a) = ((b1 a : ℝ) : EReal))
  (hW2 : ∀ (a : Fin 128) (b : Fin 64), m ((c : Thread nD τ).loc main_arg3) (ix2 a b) = ((W2 a b : ℝ) : EReal))
  (hb2 : ∀ b : Fin 64, m ((c : Thread nD τ).loc main_arg4) (ix1 b) = ((b2 b : ℝ) : EReal))
  (hW3 : ∀ b : Fin 64, m ((c : Thread nD τ).loc main_arg5) (ix2 b 0) = ((W3 b : ℝ) : EReal))
  (hb3 : m ((c : Thread nD τ).loc main_arg6) (ix1 0) = ((b3 : ℝ) : EReal))
  (hr : m ((c : Thread nD τ).loc main_arg7) (ix2 0 0) = ((r : ℝ) : EReal))
  (he : m ((c : Thread nD τ).loc main_arg8) (ix2 0 0) = ((e : ℝ) : EReal))

include hX hW1 hb1 hW2 hb2 hW3 hb3 hr he in

theorem kernel_result :
    (V12 m (outs m) c main_v77 : FVec Ideal S8192 .f32)
      = Cert.TailValue.tail (fun idx => ((attn (latR X W1 b1 W2 b2 W3 b3) r e (idx 0) : ℝ) : EReal))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17))
          (m ((c : Thread nD τ).loc main_arg18)) (m ((c : Thread nD τ).loc main_arg19)) (m ((c : Thread nD τ).loc main_arg20))
          (m ((c : Thread nD τ).loc main_arg21)) (m ((c : Thread nD τ).loc main_arg22)) := by
  have hl (i : Fin 8192) : V2 m (outs m) c main_v3 (ix2 i 0) = ((latR X W1 b1 W2 b2 W3 b3 i : ℝ) : EReal) := by
    have e1 : V2 m (outs m) c main_v3 = (outs m) 2 main_v3 c := by simp only [V2, Function.update_self]
    rw [e1, outs_h2 m c, enc_array (Vr1 m) c, latents, ← lat_coe]
    congr 1
    · funext i k; exact (congrFun (Glue.V1_arg0 m c) (ix2 i k)).trans (hX i k)
    · funext k a; exact (congrFun (Glue.V1_arg1 m c) (ix2 k a)).trans (hW1 k a)
    · funext a; exact (Glue.v0_apply m c a).trans (hb1 a)
    · funext a b; exact (congrFun (Glue.V1_arg3 m c) (ix2 a b)).trans (hW2 a b)
    · funext b; exact (Glue.v1_apply m c b).trans (hb2 b)
    · funext b; exact (congrFun (Glue.V1_arg5 m c) (ix2 b 0)).trans (hW3 b)
    · exact (Glue.v2_apply m c).trans hb3
  have ha : (V5 m (outs m) c main_v23 : FVec Ideal S8192x1 .f32)
      = fun idx => ((attn (latR X W1 b1 W2 b2 W3 b3) r e (idx 0) : ℝ) : EReal) := by
    have e5 : V5 m (outs m) c main_v23 = (outs m) 5 main_v23 c := by simp only [V5, Function.update_self]
    funext idx
    have hi : idx = ix2 (idx 0) (0 : Fin 1) := (eq_ix2 idx).trans (congrArg (ix2 (idx 0)) (Fin.ext (Nat.lt_one_iff.mp (idx 1).isLt)))
    rw [e5, outs_h5 m c, hi]
    exact attn_final (Vr4 m (outs m)) c (latR X W1 b1 W2 b2 W3 b3) r e
      (Glue.q_apply m (outs m) c _ r hl hr) (Glue.k_apply m (outs m) c _ e hl he) (Glue.v_apply m (outs m) c _ hl)
      (Glue.m_apply m (outs m) c _ r e hl hr he) (idx 0)
  exact (Cert.TailValue.kernel_tail m (outs m) c).trans (congrArg (Cert.TailValue.tail · _ _ _ _ _ _ _ _ _ _ _ _ _ _) ha)

end

end Cert.KernelIdeal.Val

end
-- ==== Proof.RefLat.lean ====
import proofs.«423507_j65481071407721_3_alg».proof.Proof.RefGen
import proofs.«423507_j65481071407721_3_alg».proof.Proof.Spec

noncomputable section

namespace Cert.RefValue

open Cert.ReferenceIdeal Cert.ReferenceIdeal.Read Idealize.ShloMosaic Idealize.ShloMosaic.StableHlo
open Idealize.ShloMosaic.ValueIdx

-- Two indices into an array of two axes that agree on each axis are equal.
theorem idx2_ext {a b : ℕ} {f g : (⟨2, ![a, b]⟩ : Shape).Idx} (h0 : (f 0).val = (g 0).val) (h1 : (f 1).val = (g 1).val) :
    f = g :=
  funext fun d => Fin.ext (by match d with | ⟨0, _⟩ => exact h0 | ⟨1, _⟩ => exact h1)

theorem idx1_ext {a : ℕ} {f g : (⟨1, ![a]⟩ : Shape).Idx} (h0 : (f 0).val = (g 0).val) : f = g :=
  funext fun d => Fin.ext (by match d with | ⟨0, _⟩ => exact h0)

theorem ref_hid1 (x0 x1 x2) (i : Fin 8192) (a : Fin 128) :
    val_main_v4 (F := Ideal) x0 x1 x2 (ix2 i a)
      = Cert.Spec.hid1 (fun i k => x0 (ix2 i k)) (fun k a => x1 (ix2 k a)) (fun a => x2 (ix1 a)) i a := by
  have el (k : Fin 4096) : lidx_main_v0 (ix2 i a) k = ix2 i k := idx2_ext rfl rfl
  have er (k : Fin 4096) : ridx_main_v0 (ix2 i a) k = ix2 k a := idx2_ext rfl rfl
  have eb : idx_main_v1 (idx_main_v2 (ix2 i a)) = ix1 a := idx1_ext rfl
  rw [val_main_v4_apply, val_main_v3_apply, val_main_v0_apply, val_main_v2_apply, val_main_v1_apply,
    val_main_call0_v0_apply, val_main_call0_cst_apply]
  simp only [el, er, eb, Ideal.addf_def, Ideal.maximumf_def, Ideal.ofBits_def]
  rfl

theorem ref_hid2 (x0 x1 x2 x3 x4) (i : Fin 8192) (b : Fin 64) :
    val_main_v9 (F := Ideal) x0 x1 x2 x3 x4 (ix2 i b)
      = Cert.Spec.hid2 (fun i k => x0 (ix2 i k)) (fun k a => x1 (ix2 k a)) (fun a => x2 (ix1 a))
          (fun a b => x3 (ix2 a b)) (fun b => x4 (ix1 b)) i b := by
  have el (a : Fin 128) : lidx_main_v5 (ix2 i b) a = ix2 i a := idx2_ext rfl rfl
  have er (a : Fin 128) : ridx_main_v5 (ix2 i b) a = ix2 a b := idx2_ext rfl rfl
  have eb : idx_main_v6 (idx_main_v7 (ix2 i b)) = ix1 b := idx1_ext rfl
  rw [val_main_v9_apply, val_main_v8_apply, val_main_v5_apply, val_main_v7_apply, val_main_v6_apply,
    val_main_call1_v0_apply, val_main_call1_cst_apply]
  simp only [el, er, eb, ref_hid1, Ideal.addf_def, Ideal.maximumf_def, Ideal.ofBits_def]
  rfl

theorem ref_lat (x0 x1 x2 x3 x4 x5 x6) (i : Fin 8192) :
    val_main_v13 (F := Ideal) x0 x1 x2 x3 x4 x5 x6 (ix2 i 0)
      = Cert.Spec.lat (fun i k => x0 (ix2 i k)) (fun k a => x1 (ix2 k a)) (fun a => x2 (ix1 a))
          (fun a b => x3 (ix2 a b)) (fun b => x4 (ix1 b)) (fun b => x5 (ix2 b 0)) (x6 (ix1 0)) i := by
  have el (b : Fin 64) : lidx_main_v10 (ix2 i (0 : Fin 1)) b = ix2 i b := idx2_ext rfl rfl
  have er (b : Fin 64) : ridx_main_v10 (ix2 i (0 : Fin 1)) b = ix2 b (0 : Fin 1) := idx2_ext rfl rfl
  have eb : idx_main_v11 (idx_main_v12 (ix2 i (0 : Fin 1))) = ix1 (0 : Fin 1) := idx1_ext rfl
  rw [val_main_v13_apply, val_main_v10_apply, val_main_v12_apply, val_main_v11_apply]
  simp only [el, er, eb, ref_hid2, Ideal.addf_def]
  rfl

end Cert.RefValue

end
-- ==== Proof.RefAttn.lean ====
import proofs.«423507_j65481071407721_3_alg».proof.Proof.RefLat
import proofs.«423507_j65481071407721_3_alg».proof.Proof.SoftmaxLaw
import Idealize.ShloMosaic.Lib.IdealHost
import Idealize.ShloMosaic.PureOps.Reduce
import Mathlib.Data.EReal.Basic
import Mathlib.Data.EReal.Operations
import Mathlib.Data.Finset.Lattice.Fold
import Mathlib.Algebra.BigOperators.Fin
import Mathlib.Algebra.BigOperators.Field
import Mathlib.Algebra.Order.BigOperators.Group.Finset
import Mathlib.Analysis.Complex.Exponential
import Mathlib.Analysis.Real.Sqrt

noncomputable section

namespace Cert.RefValue

open Cert.ReferenceIdeal Cert.ReferenceIdeal.Gen Cert.ReferenceIdeal.Read Idealize.ShloMosaic Idealize.ShloMosaic.ValueIdx
open Idealize.ShloMosaic.StableHlo Cert.Spec

variable {x0 : (⟨S8192x4096, .f32⟩ : BufTy).Contents (Elt Ideal)} {x1 : (⟨S4096x128, .f32⟩ : BufTy).Contents (Elt Ideal)}
  {x2 : (⟨S128, .f32⟩ : BufTy).Contents (Elt Ideal)} {x3 : (⟨S128x64, .f32⟩ : BufTy).Contents (Elt Ideal)}
  {x4 : (⟨S64, .f32⟩ : BufTy).Contents (Elt Ideal)} {x5 : (⟨S64x1, .f32⟩ : BufTy).Contents (Elt Ideal)}
  {x6 : (⟨S1, .f32⟩ : BufTy).Contents (Elt Ideal)} {x7 x8 : (⟨S1x1, .f32⟩ : BufTy).Contents (Elt Ideal)}
  {l : Fin 8192 → ℝ} {r e : ℝ}
  (hl : ∀ i : Fin 8192, val_main_v13 x0 x1 x2 x3 x4 x5 x6 (ix2 i 0) = ((l i : ℝ) : EReal))
  (hr : x7 (ix2 0 0) = ((r : ℝ) : EReal)) (he : x8 (ix2 0 0) = ((e : ℝ) : EReal))
include hl hr he

theorem scores_apply (i j : Fin 8192) :
    val_main_v17 x0 x1 x2 x3 x4 x5 x6 x7 x8 (ix2 i j) = ((score l r e i j : ℝ) : EReal) := by
  have e14 : lidx_main_v14 (ix2 i (0 : Fin 1)) 0 = ix2 i 0 := idx2_ext rfl rfl
  have e14' : ridx_main_v14 (ix2 i (0 : Fin 1)) 0 = ix2 0 0 := idx2_ext rfl rfl
  have e15 : lidx_main_v15 (ix2 j (0 : Fin 1)) 0 = ix2 j 0 := idx2_ext rfl rfl
  have e15' : ridx_main_v15 (ix2 j (0 : Fin 1)) 0 = ix2 0 0 := idx2_ext rfl rfl
  have e16 : idx_main_v16 (ix2 (0 : Fin 1) j) = ix2 j 0 := idx2_ext rfl rfl
  have el : lidx_main_v17 (ix2 i j) 0 = ix2 i 0 := idx2_ext rfl rfl
  have er : ridx_main_v17 (ix2 i j) 0 = ix2 0 j := idx2_ext rfl rfl
  rw [val_main_v17_apply, Fin.sum_univ_one, el, er, val_main_v14_apply, Fin.sum_univ_one, e14, e14', hl, hr,
    val_main_v16_apply, e16, val_main_v15_apply, Fin.sum_univ_one, e15, e15', hl, he, ← EReal.coe_mul, ← EReal.coe_mul,
    ← EReal.coe_mul]
  rfl

theorem scaled_apply (i j : Fin 8192) :
    val_main_v20 x0 x1 x2 x3 x4 x5 x6 x7 x8 (ix2 i j) = ((score l r e i j : ℝ) : EReal) := by
  have h1 : Ideal.sqrt (1 : EReal) = ((1 : ℝ) : EReal) := by
    rw [show (1 : EReal) = ((1 : ℝ) : EReal) from rfl, Ideal.sqrt_coe, if_neg (by norm_num), Real.sqrt_one]
  rw [val_main_v20_apply, val_main_v19_apply, val_main_v18_apply, val_main_cst_apply, scores_apply hl hr he]
  simp only [Ideal.hostDivf_def, Ideal.hostUnary_sqrt_def, Ideal.ofBits_def, Ideal.ofBits_one_f32]
  rw [h1, div_coe' _ one_ne_zero, div_one]

theorem rowmax_bcast_apply (i j : Fin 8192) :
    val_main_v25 x0 x1 x2 x3 x4 x5 x6 x7 x8 (ix2 i j) = ((rowMax l r e i : ℝ) : EReal) := by
  have h : S8192x8192.Reduces [1] S8192 := by decide
  have e25 : idx_main_v25 (ix2 i j) = ix2 i 0 := idx2_ext rfl rfl
  have e24 : idx_main_v24 (ix2 i (0 : Fin 1)) = ix1 i := idx1_ext rfl
  have hf : (val_main_v20 x0 x1 x2 x3 x4 x5 x6 x7 x8 ∘ h.lift (ix1 i))
      = fun k : Fin 8192 => ((score l r e i k : ℝ) : EReal) := funext fun k =>
    (congrArg _ (idx2_ext rfl rfl : h.lift (ix1 i) k = ix2 i (⟨k.val, k.isLt⟩ : Fin 8192))).trans
      (scaled_apply hl hr he i _)
  rw [val_main_v25_apply, e25, val_main_v24_apply, e24, val_main_v23_apply, val_main_v22_apply, val_main_cst_1_apply]
  unfold val_main_v21
  rw [Host.reduce_eq_fold_single FloatOps.maximumf _ _ reducesTo_S8192x8192_S8192_d1 h h_S_, hf]
  simp only [Ideal.maximumf_def, Ideal.ofBits_def]
  rw [neg_inf_word, max_bot_left]
  exact fold_max_coe Finset.univ Finset.univ_nonempty (score l r e i)

theorem weight_apply (i j : Fin 8192) :
    val_main_v27 x0 x1 x2 x3 x4 x5 x6 x7 x8 (ix2 i j) = ((weight l r e i j : ℝ) : EReal) := by
  rw [val_main_v27_apply, val_main_v26_apply, scaled_apply hl hr he, rowmax_bcast_apply hl hr he]
  simp only [Ideal.hostUnary_exp_def, Ideal.subf_def]
  rw [← EReal.coe_sub, Ideal.exp_coe]
  rfl

theorem prob_apply (i j : Fin 8192) :
    val_main_v31 x0 x1 x2 x3 x4 x5 x6 x7 x8 (ix2 i j)
      = ((weight l r e i j / ∑ j' : Fin 8192, weight l r e i j' : ℝ) : EReal) := by
  have ei (k : Fin 8192) : idx_main_v28 (ix1 i) k = ix2 i k := idx2_ext rfl rfl
  have e30 : idx_main_v30 (ix2 i j) = ix2 i 0 := idx2_ext rfl rfl
  have e29 : idx_main_v29 (ix2 i (0 : Fin 1)) = ix1 i := idx1_ext rfl
  rw [val_main_v31_apply, weight_apply hl hr he, val_main_v30_apply, e30, val_main_v29_apply, e29, val_main_v28_apply,
    val_main_cst_2_apply]
  simp only [Ideal.ofBits_def, Ideal.ofBits_zero_f32, zero_add, ei, weight_apply hl hr he, Ideal.hostDivf_def]
  rw [← coe_sum]
  exact div_coe' _ (sum_weight_ne l r e i)

theorem ref_attn (i : Fin 8192) :
    val_main_v32 x0 x1 x2 x3 x4 x5 x6 x7 x8 (ix2 i 0) = ((attn l r e i : ℝ) : EReal) := by
  have el (k : Fin 8192) : lidx_main_v32 (ix2 i (0 : Fin 1)) k = ix2 i k := idx2_ext rfl rfl
  have er (k : Fin 8192) : ridx_main_v32 (ix2 i (0 : Fin 1)) k = ix2 k 0 := idx2_ext rfl rfl
  rw [val_main_v32_apply]
  simp only [el, er, prob_apply hl hr he, hl, ← EReal.coe_mul]
  rw [← coe_sum]
  refine congrArg (fun t : ℝ => (t : EReal)) ?_
  unfold attn
  rw [Finset.sum_div]
  exact Finset.sum_congr rfl fun j _ => div_mul_eq_mul_div _ _ _

end Cert.RefValue

end
-- ==== Proof.TailRef.lean ====
import proofs.«423507_j65481071407721_3_alg».proof.Proof.TailDef
import proofs.«423507_j65481071407721_3_alg».proof.Proof.RefGen

noncomputable section

namespace Cert.TailValue

open Idealize.ShloMosaic Cert.ReferenceIdeal Cert.ReferenceIdeal.Read

-- The reference applies the tail's operations, in the tail's order, to its attention output.
theorem ref_tail (x0 x1 x2 x3 x4 x5 x6 x7 x8 x9 x10 x11 x12 x13 x14 x15 x16 x17 x18 x19 x20 x21 x22) :
    val_main_v86 (F := Ideal) x0 x1 x2 x3 x4 x5 x6 x7 x8 x9 x10 x11 x12 x13 x14 x15 x16 x17 x18 x19 x20 x21 x22
      = tail (val_main_v32 (F := Ideal) x0 x1 x2 x3 x4 x5 x6 x7 x8) x9 x10 x11 x12 x13 x14 x15 x16 x17 x18 x19 x20 x21 x22 := by
  unfold val_main_v86 val_main_v85 val_main_v84 val_main_v83 val_main_v82 val_main_v81 val_main_v80 val_main_v79 val_main_v78
    val_main_v77 val_main_v76 val_main_v75 val_main_v74 val_main_v73 val_main_v72 val_main_v71 val_main_v70 val_main_v69 val_main_v68
    val_main_v67 val_main_v66 val_main_v65 val_main_cst_7 val_main_v64 val_main_v63 val_main_v62 val_main_v61 val_main_v60
    val_main_cst_6 val_main_v59 val_main_cst_5 val_main_v58 val_main_v57 val_main_v56 val_main_v55 val_main_v54 val_main_v53
    val_main_cst_4 val_main_v52 val_main_cst_3 val_main_v51 val_main_v50 val_main_v49 val_main_v48
    val_main_v47 val_main_v46 val_main_v45 val_main_v44 val_main_v43 val_main_call4_v0 val_main_call4_cst
    val_main_v42 val_main_v41 val_main_v40 val_main_v39 val_main_v38 val_main_call3_v0 val_main_call3_cst
    val_main_v37 val_main_v36 val_main_v35 val_main_v34 val_main_v33 val_main_call2_v0 val_main_call2_cst
  generalize val_main_v32 (F := Ideal) x0 x1 x2 x3 x4 x5 x6 x7 x8 = a
  rfl

end Cert.TailValue

end
-- ==== Proof.RefValue.lean ====
import proofs.«423507_j65481071407721_3_alg».proof.Proof.Finite
import proofs.«423507_j65481071407721_3_alg».proof.Proof.RefAttn
import proofs.«423507_j65481071407721_3_alg».proof.Proof.TailRef

noncomputable section

namespace Cert.RefValue

open Cert.ReferenceIdeal Cert.ReferenceIdeal.Read Idealize.ShloMosaic Idealize.ShloMosaic.ValueIdx Idealize.SL.Sem

theorem ref_result (m' : (ℓ : Loc nD τ sig) → Buf (Elt Ideal) ℓ) (c : Dev nD)
    (xr : Fin 8192 → Fin 4096 → ℝ) (W1r : Fin 4096 → Fin 128 → ℝ) (b1r : Fin 128 → ℝ) (W2r : Fin 128 → Fin 64 → ℝ)
    (b2r : Fin 64 → ℝ) (W3r : Fin 64 → ℝ) (b3r r e : ℝ)
    (h0 : ∀ i k, (m' ((c.tc : Thread nD τ).loc main_arg0)) (ix2 i k) = ((xr i k : ℝ) : EReal))
    (h1 : ∀ k a, (m' ((c.tc : Thread nD τ).loc main_arg1)) (ix2 k a) = ((W1r k a : ℝ) : EReal))
    (h2 : ∀ a, (m' ((c.tc : Thread nD τ).loc main_arg2)) (ix1 a) = ((b1r a : ℝ) : EReal))
    (h3 : ∀ a b, (m' ((c.tc : Thread nD τ).loc main_arg3)) (ix2 a b) = ((W2r a b : ℝ) : EReal))
    (h4 : ∀ b, (m' ((c.tc : Thread nD τ).loc main_arg4)) (ix1 b) = ((b2r b : ℝ) : EReal))
    (h5 : ∀ b, (m' ((c.tc : Thread nD τ).loc main_arg5)) (ix2 b 0) = ((W3r b : ℝ) : EReal))
    (h6 : (m' ((c.tc : Thread nD τ).loc main_arg6)) (ix1 0) = ((b3r : ℝ) : EReal))
    (h7 : (m' ((c.tc : Thread nD τ).loc main_arg7)) (ix2 0 0) = ((r : ℝ) : EReal))
    (h8 : (m' ((c.tc : Thread nD τ).loc main_arg8)) (ix2 0 0) = ((e : ℝ) : EReal)) :
    Cert.ReferenceIdeal.Value.res_main_v86 m' c
      = Cert.TailValue.tail (fun idx => ((Cert.Spec.attn (Cert.Spec.latR xr W1r b1r W2r b2r W3r b3r) r e (idx 0) : ℝ) : EReal))
          (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)) (m' ((c.tc : Thread nD τ).loc main_arg19)) (m' ((c.tc : Thread nD τ).loc main_arg20)) (m' ((c.tc : Thread nD τ).loc main_arg21)) (m' ((c.tc : Thread nD τ).loc main_arg22)) := by
  rw [val_main_v86_eq, Cert.TailValue.ref_tail]
  congr 1
  funext idx
  obtain ⟨i, z, rfl⟩ : ∃ (i : Fin 8192) (z : Fin 1), idx = ix2 i z := ⟨idx 0, idx 1, eq_ix2 idx⟩
  obtain rfl : z = 0 := Subsingleton.elim _ _
  refine ref_attn (fun i => ?_) h7 h8 i
  rw [ref_lat, ← Cert.Spec.lat_coe]
  simp only [h0, h1, h2, h3, h4, h5, h6]

end Cert.RefValue

end
-- ==== Proof.PreFinite.lean ====
import proofs.«423507_j65481071407721_3_alg».proof.Pre_finite_inputs
import Idealize.ShloMosaic.Lib.ReduceAll
import Idealize.ShloMosaic.Lib.ValueIdx
import Idealize.ShloMosaic.PureOps.Ideal

noncomputable section

namespace Cert.PreValue

open Idealize.ShloMosaic Cert.Pre_finite_inputs

instance : Subsingleton S_.Idx := ⟨fun a b => funext fun d => d.elim0⟩

-- An array whose every absolute value compares below +∞, reduced by and to 1, holds only real numbers.
theorem all_real {s : Shape} {axes : List (Fin s.rank)} {hb : S_.BroadcastsInDim s (![] : Fin 0 → Fin s.rank)}
    {hr : s.ReducesTo axes S_} {hu : 0 < S_.numel} {x : FVec Ideal s .f32} {j : S_.Idx}
    (e : Host.reduce IntOp.andi (cmpf .olt (Host.absf x) (broadcastInDim s ![] hb (constant S_ .f32 0x7F800000#32)))
          (constantI S_ 1 1#1) hr hu j = 1#1) (i : s.Idx) : ∃ y : ℝ, x i = (y : EReal) := by
  have h : Ideal.cmp .olt (max (x i) (-x i)) (Ideal.ofBits .f32 0x7F800000#32) = 1#1 := Host.reduce_andi_all _ _ hr hu j e i
  rw [show Ideal.ofBits .f32 0x7F800000#32 = (⊤ : EReal) by simp [Ideal.ofBits, Ideal.ieee]] at h
  generalize x i = y at h ⊢
  induction y using EReal.rec with
  | bot => simp [Ideal.cmp] at h
  | top => simp [Ideal.cmp] at h
  | coe r => exact ⟨r, rfl⟩

variable [Facts]

theorem args_real (a0 a1 a2 a3 a4 a5 a6 a7 a8 a9 a10 a11 a12 a13 a14 a15 a16 a17 a18 a19 a20 a21 a22)
    (h : fn (F := Ideal) a0 a1 a2 a3 a4 a5 a6 a7 a8 a9 a10 a11 a12 a13 a14 a15 a16 a17 a18 a19 a20 a21 a22 = fun _ => 1#1) :
    (∀ idx, ∃ y : ℝ, a0 idx = (y : EReal)) ∧ (∀ idx, ∃ y : ℝ, a1 idx = (y : EReal)) ∧ (∀ idx, ∃ y : ℝ, a2 idx = (y : EReal)) ∧
    (∀ idx, ∃ y : ℝ, a3 idx = (y : EReal)) ∧ (∀ idx, ∃ y : ℝ, a4 idx = (y : EReal)) ∧ (∀ idx, ∃ y : ℝ, a5 idx = (y : EReal)) ∧
    (∀ idx, ∃ y : ℝ, a6 idx = (y : EReal)) ∧ (∀ idx, ∃ y : ℝ, a7 idx = (y : EReal)) ∧ (∀ idx, ∃ y : ℝ, a8 idx = (y : EReal)) ∧
    (∀ idx, ∃ y : ℝ, a9 idx = (y : EReal)) ∧ (∀ idx, ∃ y : ℝ, a10 idx = (y : EReal)) ∧ (∀ idx, ∃ y : ℝ, a11 idx = (y : EReal)) ∧
    (∀ idx, ∃ y : ℝ, a12 idx = (y : EReal)) ∧ (∀ idx, ∃ y : ℝ, a13 idx = (y : EReal)) ∧ (∀ idx, ∃ y : ℝ, a14 idx = (y : EReal)) ∧
    (∀ idx, ∃ y : ℝ, a15 idx = (y : EReal)) ∧ (∀ idx, ∃ y : ℝ, a16 idx = (y : EReal)) ∧ (∀ idx, ∃ y : ℝ, a17 idx = (y : EReal)) ∧
    (∀ idx, ∃ y : ℝ, a18 idx = (y : EReal)) ∧ (∀ idx, ∃ y : ℝ, a19 idx = (y : EReal)) ∧ (∀ idx, ∃ y : ℝ, a20 idx = (y : EReal)) ∧
    (∀ idx, ∃ y : ℝ, a21 idx = (y : EReal)) ∧ (∀ idx, ∃ y : ℝ, a22 idx = (y : EReal)) := by
  have h0 := congrFun h ValueIdx.ix0
  dsimp only [fn, fn_part1, fn_part2, fn_part3, fn_part4, fn_part5, fn_part6] at h0
  simp only [Idealize.ShloMosaic.andi, IntOp.andi_eq_one, and_assoc] at h0
  obtain ⟨e0, e1, e2, e3, e4, e5, e6, e7, e8, e9, e10, e11, e12, e13, e14, e15, e16, e17, e18, e19, e20, e21, e22⟩ := h0
  exact ⟨all_real e0, all_real e1, all_real e2, all_real e3,
    all_real e4, all_real e5, all_real e6, all_real e7,
    all_real e8, all_real e9, all_real e10, all_real e11,
    all_real e12, all_real e13, all_real e14, all_real e15,
    all_real e16, all_real e17, all_real e18, all_real e19,
    all_real e20, all_real e21, all_real e22⟩

end Cert.PreValue

end
-- ==== Proof.Algebraic.lean ====
import proofs.«423507_j65481071407721_3_alg».proof.Defs
import proofs.«423507_j65481071407721_3_alg».proof.Proof.Gen.KernelIdeal
import proofs.«423507_j65481071407721_3_alg».proof.Proof.Gen.ReferenceIdeal
import proofs.«423507_j65481071407721_3_alg».proof.Proof.Gen.Pre_finite_inputs
import proofs.«423507_j65481071407721_3_alg».proof.Proof.Gen.ReferenceIdeal.Run
import proofs.«423507_j65481071407721_3_alg».proof.Proof.KI.Run
import proofs.«423507_j65481071407721_3_alg».proof.Proof.KI.KValue
import proofs.«423507_j65481071407721_3_alg».proof.Proof.RefValue
import proofs.«423507_j65481071407721_3_alg».proof.Proof.PreFinite
import proofs.«423507_j65481071407721_3_alg».proof.Proof.Finite
import proofs.«423507_j65481071407721_3_alg».proof.Proof.TailDef
import Idealize.ShloMosaic.Lib.ValueIdx

set_option maxRecDepth 16384

noncomputable section

namespace Cert.Proof.Parts

open Idealize.ShloMosaic Idealize.ShloMosaic.TcCoe Idealize.ShloMosaic.ValueIdx Idealize.SL.Sem

-- Under the precondition every argument entry is a real, so both programs' attention columns are the real attention
-- of the real latents and, their arguments agreeing, the two results are one term: the head applied to that column.
open Cert.KernelIdeal Cert.KernelIdeal.Gen Cert.KernelIdeal.Fr in
theorem algebraic : Cert.algebraic_KernelIdeal_ReferenceIdeal := by
  intro m ρ m' ρ' hpre hagree
  refine ⟨fun c => V12 m (outs m) c main_v77, (θ_run defs _ _).mono (fun r h c =>
    have k := final_at m (h c)
    ⟨k main_v77 (by decide) rfl, k main_arg0 (by decide) (V12_main_arg0 m _ c), k main_arg1 (by decide) (V12_main_arg1 m _ c),
     k main_arg2 (by decide) (V12_main_arg2 m _ c), k main_arg3 (by decide) (V12_main_arg3 m _ c), k main_arg4 (by decide) (V12_main_arg4 m _ c),
     k main_arg5 (by decide) (V12_main_arg5 m _ c), k main_arg6 (by decide) (V12_main_arg6 m _ c), k main_arg7 (by decide) (V12_main_arg7 m _ c),
     k main_arg8 (by decide) (V12_main_arg8 m _ c), k main_arg9 (by decide) (V12_main_arg9 m _ c), k main_arg10 (by decide) (V12_main_arg10 m _ c),
     k main_arg11 (by decide) (V12_main_arg11 m _ c), k main_arg12 (by decide) (V12_main_arg12 m _ c),
     k main_arg13 (by decide) (V12_main_arg13 m _ c), k main_arg14 (by decide) (V12_main_arg14 m _ c),
     k main_arg15 (by decide) (V12_main_arg15 m _ c), k main_arg16 (by decide) (V12_main_arg16 m _ c),
     k main_arg17 (by decide) (V12_main_arg17 m _ c), k main_arg18 (by decide) (V12_main_arg18 m _ c),
     k main_arg19 (by decide) (V12_main_arg19 m _ c), k main_arg20 (by decide) (V12_main_arg20 m _ c),
     k main_arg21 (by decide) (V12_main_arg21 m _ c), k main_arg22 (by decide) (V12_main_arg22 m _ c)⟩) (run (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨q0, q1, q2, q3, q4, q5, q6, q7, q8, -⟩ := Cert.PreValue.args_real _ _ _ _ _ _ _ _ _ _ _ _ _ _ _ _ _ _ _ _ _ _ _ (hpre c)
  choose X hX using q0
  choose W1 hW1 using q1
  choose b1 hb1 using q2
  choose W2 hW2 using q3
  choose b2 hb2 using q4
  choose W3 hW3 using q5
  choose b3 hb3 using q6
  choose r hr using q7
  choose e he using q8
  obtain ⟨g0, g1, g2, g3, g4, g5, g6, g7, g8, g9, g10, g11, g12, g13, g14, g15, g16, g17, g18, g19, g20, g21, g22⟩ := hagree c
  rw [Cert.RefValue.ref_result m' c
      (fun i k => X (ix2 i k)) (fun k a => W1 (ix2 k a)) (fun a => b1 (ix1 a)) (fun a b => W2 (ix2 a b)) (fun b => b2 (ix1 b))
      (fun b => W3 (ix2 b (0 : Fin 1))) (b3 (ix1 (0 : Fin 1))) (r (ix2 (0 : Fin 1) (0 : Fin 1))) (e (ix2 (0 : Fin 1) (0 : Fin 1)))
      (fun i k => by rw [g0]; exact hX _) (fun k a => by rw [g1]; exact hW1 _) (fun a => by rw [g2]; exact hb1 _)
      (fun a b => by rw [g3]; exact hW2 _) (fun b => by rw [g4]; exact hb2 _) (fun b => by rw [g5]; exact hW3 _)
      (by rw [g6]; exact hb3 _) (by rw [g7]; exact hr _) (by rw [g8]; exact he _),
    g9, g10, g11, g12, g13, g14, g15, g16, g17, g18, g19, g20, g21, g22]
  exact (Cert.KernelIdeal.Val.kernel_result m c
      (fun i k => X (ix2 i k)) (fun k a => W1 (ix2 k a)) (fun a => b1 (ix1 a)) (fun a b => W2 (ix2 a b)) (fun b => b2 (ix1 b))
      (fun b => W3 (ix2 b (0 : Fin 1))) (b3 (ix1 (0 : Fin 1))) (r (ix2 (0 : Fin 1) (0 : Fin 1))) (e (ix2 (0 : Fin 1) (0 : Fin 1)))
      (fun i k => hX _) (fun k a => hW1 _) (fun a => hb1 _) (fun a b => hW2 _) (fun b => hb2 _) (fun b => hW3 _)
      (hb3 _) (hr _) (he _)).symm

end Cert.Proof.Parts

end
-- ==== Proof.lean ====
import proofs.«423507_j65481071407721_3_alg».proof.Defs
import proofs.«423507_j65481071407721_3_alg».proof.Proof.Gen.Kernel
import proofs.«423507_j65481071407721_3_alg».proof.Proof.Gen.KernelIdeal
import proofs.«423507_j65481071407721_3_alg».proof.Proof.Gen.ReferenceIdeal
import proofs.«423507_j65481071407721_3_alg».proof.Proof.Gen.Pre_finite_inputs
import proofs.«423507_j65481071407721_3_alg».proof.Proof.K.Run
import proofs.«423507_j65481071407721_3_alg».proof.Proof.KI.Run
import proofs.«423507_j65481071407721_3_alg».proof.Proof.RefGen
import proofs.«423507_j65481071407721_3_alg».proof.Proof.Algebraic

noncomputable section

namespace Cert.Proof

open Idealize.ShloMosaic Idealize.SL.Sem

-- the program runs to the end; every array it holds ends at its final contents, and an argument's are its initial ones
open Cert.Kernel Cert.Kernel.Gen Cert.Kernel.Fr in
theorem frame_kernel : Cert.frame_Kernel := fun m ρ _ =>
  (θ_run defs _ _).mono (fun r h c =>
    have k := final_at m (h c)
    ⟨k main_arg0 (by decide) (V12_main_arg0 m _ c), k main_arg1 (by decide) (V12_main_arg1 m _ c), k main_arg2 (by decide) (V12_main_arg2 m _ c),
     k main_arg3 (by decide) (V12_main_arg3 m _ c), k main_arg4 (by decide) (V12_main_arg4 m _ c), k main_arg5 (by decide) (V12_main_arg5 m _ c),
     k main_arg6 (by decide) (V12_main_arg6 m _ c), k main_arg7 (by decide) (V12_main_arg7 m _ c), k main_arg8 (by decide) (V12_main_arg8 m _ c),
     k main_arg9 (by decide) (V12_main_arg9 m _ c), k main_arg10 (by decide) (V12_main_arg10 m _ c), k main_arg11 (by decide) (V12_main_arg11 m _ c),
     k main_arg12 (by decide) (V12_main_arg12 m _ c), k main_arg13 (by decide) (V12_main_arg13 m _ c),
     k main_arg14 (by decide) (V12_main_arg14 m _ c), k main_arg15 (by decide) (V12_main_arg15 m _ c),
     k main_arg16 (by decide) (V12_main_arg16 m _ c), k main_arg17 (by decide) (V12_main_arg17 m _ c),
     k main_arg18 (by decide) (V12_main_arg18 m _ c), k main_arg19 (by decide) (V12_main_arg19 m _ c),
     k main_arg20 (by decide) (V12_main_arg20 m _ c), k main_arg21 (by decide) (V12_main_arg21 m _ c),
     k main_arg22 (by decide) (V12_main_arg22 m _ c)⟩) (run m ρ)

open Cert.KernelIdeal Cert.KernelIdeal.Gen Cert.KernelIdeal.Fr in
theorem frame_kernelIdeal : Cert.frame_KernelIdeal := fun m ρ _ =>
  (θ_run defs _ _).mono (fun r h c =>
    have k := final_at m (h c)
    ⟨k main_arg0 (by decide) (V12_main_arg0 m _ c), k main_arg1 (by decide) (V12_main_arg1 m _ c), k main_arg2 (by decide) (V12_main_arg2 m _ c),
     k main_arg3 (by decide) (V12_main_arg3 m _ c), k main_arg4 (by decide) (V12_main_arg4 m _ c), k main_arg5 (by decide) (V12_main_arg5 m _ c),
     k main_arg6 (by decide) (V12_main_arg6 m _ c), k main_arg7 (by decide) (V12_main_arg7 m _ c), k main_arg8 (by decide) (V12_main_arg8 m _ c),
     k main_arg9 (by decide) (V12_main_arg9 m _ c), k main_arg10 (by decide) (V12_main_arg10 m _ c), k main_arg11 (by decide) (V12_main_arg11 m _ c),
     k main_arg12 (by decide) (V12_main_arg12 m _ c), k main_arg13 (by decide) (V12_main_arg13 m _ c),
     k main_arg14 (by decide) (V12_main_arg14 m _ c), k main_arg15 (by decide) (V12_main_arg15 m _ c),
     k main_arg16 (by decide) (V12_main_arg16 m _ c), k main_arg17 (by decide) (V12_main_arg17 m _ c),
     k main_arg18 (by decide) (V12_main_arg18 m _ c), k main_arg19 (by decide) (V12_main_arg19 m _ c),
     k main_arg20 (by decide) (V12_main_arg20 m _ c), k main_arg21 (by decide) (V12_main_arg21 m _ c),
     k main_arg22 (by decide) (V12_main_arg22 m _ c)⟩) (run m ρ)

-- the reference is host operations only: its run, with the result dropped
theorem frame_referenceIdeal : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, Parts.algebraic⟩

end Cert.Proof

end
